-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_sqrt_2pi_word" .f32 0x3ECC422A#32 ((4194304 / 10513561 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x3 : Shape := ⟨3, ![2, 512, 3]⟩
abbrev S2x512 : Shape := ⟨2, ![2, 512]⟩
abbrev S2x512x512 : Shape := ⟨3, ![2, 512, 512]⟩
abbrev S128 : Shape := ⟨1, ![128]⟩
abbrev S1024x1 : Shape := ⟨2, ![1024, 1]⟩
abbrev S128x128 : Shape := ⟨2, ![128, 128]⟩
abbrev S32x128 : Shape := ⟨2, ![32, 128]⟩
abbrev S32 : Shape := ⟨1, ![32]⟩
abbrev S768x128 : Shape := ⟨2, ![768, 128]⟩
abbrev S768 : Shape := ⟨1, ![768]⟩
abbrev S_ : Shape := ⟨0, ![]⟩

class Facts : Prop where
  bcast_S_S2x512x3 : S_.BroadcastsInDim S2x512x3 (![] : Fin 0 → Fin S2x512x3.rank)
  reducesTo_S2x512x3_S_d0_1_2 : S2x512x3.ReducesTo [0, 1, 2] S_
  h_S_ : 0 < S_.numel
  bcast_S_S128 : S_.BroadcastsInDim S128 (![] : Fin 0 → Fin S128.rank)
  reducesTo_S128_S_d0 : S128.ReducesTo [0] S_
  bcast_S_S1024x1 : S_.BroadcastsInDim S1024x1 (![] : Fin 0 → Fin S1024x1.rank)
  reducesTo_S1024x1_S_d0_1 : S1024x1.ReducesTo [0, 1] S_
  bcast_S_S128x128 : S_.BroadcastsInDim S128x128 (![] : Fin 0 → Fin S128x128.rank)
  reducesTo_S128x128_S_d0_1 : S128x128.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S768x128 : S_.BroadcastsInDim S768x128 (![] : Fin 0 → Fin S768x128.rank)
  reducesTo_S768x128_S_d0_1 : S768x128.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg9 : FVec F S32x128 .f32) (main_arg10 : FVec F S32 .f32) (main_arg11 : FVec F S768x128 .f32) (main_arg12 : FVec F S768 .f32) (main_v33 : IVec S_ 1) : IVec S_ 1 :=
  let main_v34 : FVec F S32x128 .f32 := Host.absf main_arg9
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S768x128 .f32 := Host.absf main_arg11
  let main_cst_16 : FVec F S_ .f32 := constant S_ .f32 0x7F800000#32
  let main_v45 : FVec F S768x128 .f32 := broadcastInDim S768x128 ![] bcast_S_S768x128 main_cst_16
  let main_v46 : IVec S768x128 1 := cmpf .olt main_v44 main_v45
  let main_c_17 : IVec S_ 1 := constantI S_ 1 1#1
  let main_v47 : IVec S_ 1 := (fun x v => Host.reduce IntOp.andi x v reducesTo_S768x128_S_d0_1 h_S_) main_v46 main_c_17
  let main_v48 : IVec S_ 1 := andi main_v43 main_v47
  let main_v49 : FVec F S768 .f32 := Host.absf main_arg12
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg6 : FVec F S1024x1 .f32) (main_arg7 : FVec F S128x128 .f32) (main_arg8 : FVec F S128 .f32) (main_arg9 : FVec F S32x128 .f32) (main_arg10 : FVec F S32 .f32) (main_arg11 : FVec F S768x128 .f32) (main_arg12 : FVec F S768 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1024x1 .f32 := Host.absf main_arg6
  let main_cst_6 : FVec F S_ .f32 := constant S_ .f32 0x7F800000#32
  let main_v20 : FVec F S1024x1 .f32 := broadcastInDim S1024x1 ![] bcast_S_S1024x1 main_cst_6
  let main_v21 : IVec S1024x1 1 := cmpf .olt main_v19 main_v20
  let main_c_7 : IVec S_ 1 := constantI S_ 1 1#1
  let main_v22 : IVec S_ 1 := (fun x v => Host.reduce IntOp.andi x v reducesTo_S1024x1_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S2x512x3 .f32) (main_arg1 : IVec S2x512 32) (main_arg2 : IVec S2x512x512 32) (main_arg3 : FVec F S128 .f32) (main_arg4 : FVec F S128 .f32) (main_arg5 : FVec F S1024x1 .f32) (main_arg6 : FVec F S1024x1 .f32) (main_arg7 : FVec F S128x128 .f32) (main_arg8 : FVec F S128 .f32) (main_arg9 : FVec F S32x128 .f32) (main_arg10 : FVec F S32 .f32) (main_arg11 : FVec F S768x128 .f32) (main_arg12 : FVec F S768 .f32) : IVec S_ 1 :=
  let main_v0 : FVec F S2x512x3 .f32 := Host.absf main_arg0
  let main_cst : FVec F S_ .f32 := constant S_ .f32 0x7F800000#32
  let main_v1 : FVec F S2x512x3 .f32 := broadcastInDim S2x512x3 ![] bcast_S_S2x512x3 main_cst
  let main_v2 : IVec S2x512x3 1 := cmpf .olt main_v0 main_v1
  let main_c : IVec S_ 1 := constantI S_ 1 1#1
  let main_v3 : IVec S_ 1 := (fun x v => Host.reduce IntOp.andi x v reducesTo_S2x512x3_S_d0_1_2 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1024x1 .f32 := Host.absf main_arg5
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg6 main_arg7 main_arg8 main_arg9 main_arg10 main_arg11 main_arg12 main_v13 main_v16
-- ==== Kernel.lean ====
abbrev S2x512x3 : Shape := ⟨3, ![2, 512, 3]⟩
abbrev S2x512 : Shape := ⟨2, ![2, 512]⟩
abbrev S2x512x512 : Shape := ⟨3, ![2, 512, 512]⟩
abbrev S128 : Shape := ⟨1, ![128]⟩
abbrev S1024x1 : Shape := ⟨2, ![1024, 1]⟩
abbrev S128x128 : Shape := ⟨2, ![128, 128]⟩
abbrev S32x128 : Shape := ⟨2, ![32, 128]⟩
abbrev S32 : Shape := ⟨1, ![32]⟩
abbrev S768x128 : Shape := ⟨2, ![768, 128]⟩
abbrev S768 : Shape := ⟨1, ![768]⟩
abbrev S_ : Shape := ⟨0, ![]⟩
abbrev S2x512x512x1 : Shape := ⟨4, ![2, 512, 512, 1]⟩
abbrev S2x3x512 : Shape := ⟨3, ![2, 3, 512]⟩
abbrev S128x768 : Shape := ⟨2, ![128, 768]⟩
abbrev S2x32x512x512 : Shape := ⟨4, ![2, 32, 512, 512]⟩
abbrev S2x512x768 : Shape := ⟨3, ![2, 512, 768]⟩
abbrev S1x512x3 : Shape := ⟨3, ![1, 512, 3]⟩
abbrev S1x3x512 : Shape := ⟨3, ![1, 3, 512]⟩
abbrev S1x128x128 : Shape := ⟨3, ![1, 128, 128]⟩
abbrev S1x32x128x128 : Shape := ⟨4, ![1, 32, 128, 128]⟩
abbrev S1x128x768 : Shape := ⟨3, ![1, 128, 768]⟩
abbrev S1x128x3 : Shape := ⟨3, ![1, 128, 3]⟩
abbrev S128x3 : Shape := ⟨2, ![128, 3]⟩
abbrev S128x1 : Shape := ⟨2, ![128, 1]⟩
abbrev S1x1x128 : Shape := ⟨3, ![1, 1, 128]⟩
abbrev S1x128 : Shape := ⟨2, ![1, 128]⟩
abbrev S128x128x1 : Shape := ⟨3, ![128, 128, 1]⟩
abbrev S128x128x128 : Shape := ⟨3, ![128, 128, 128]⟩
abbrev S16384x128 : Shape := ⟨2, ![16384, 128]⟩
abbrev S32x16384 : Shape := ⟨2, ![32, 16384]⟩
abbrev S32x1 : Shape := ⟨2, ![32, 1]⟩
abbrev S32x128x128 : Shape := ⟨3, ![32, 128, 128]⟩
abbrev S1x768 : Shape := ⟨2, ![1, 768]⟩
abbrev S2x512x512x3 : Shape := ⟨4, ![2, 512, 512, 3]⟩

abbrev nBuf : Space → Nat
  | .hbm => 45
  | .vmem => 27
  | .smem => 0
  | _ => 0

abbrev bufTy : (tb : Table) → Fin (tcTables nBuf tb) → BufTy
  | .hbm, ⟨0, _⟩ => ⟨S2x512x3, .f32⟩
  | .hbm, ⟨1, _⟩ => ⟨S2x512, .i32⟩
  | .hbm, ⟨2, _⟩ => ⟨S2x512x512, .i32⟩
  | .hbm, ⟨3, _⟩ => ⟨S128, .f32⟩
  | .hbm, ⟨4, _⟩ => ⟨S128, .f32⟩
  | .hbm, ⟨5, _⟩ => ⟨S1024x1, .f32⟩
  | .hbm, ⟨6, _⟩ => ⟨S1024x1, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S32, .f32⟩
  | .hbm, ⟨11, _⟩ => ⟨S768x128, .f32⟩
  | .hbm, ⟨12, _⟩ => ⟨S768, .f32⟩
  | .hbm, ⟨13, _⟩ => ⟨S_, .i32⟩
  | .hbm, ⟨14, _⟩ => ⟨S2x512x512, .i32⟩
  | .hbm, ⟨15, _⟩ => ⟨S2x512x512, .i1⟩
  | .hbm, ⟨16, _⟩ => ⟨S_, .i32⟩
  | .hbm, ⟨17, _⟩ => ⟨S2x512x512, .i32⟩
  | .hbm, ⟨18, _⟩ => ⟨S2x512x512, .i32⟩
  | .hbm, ⟨19, _⟩ => ⟨S2x512x512, .i32⟩
  | .hbm, ⟨20, _⟩ => ⟨S2x512x512x1, .i32⟩
  | .hbm, ⟨21, _⟩ => ⟨S2x512x512x1, .f32⟩
  | .hbm, ⟨22, _⟩ => ⟨S2x512x512, .f32⟩
  | .hbm, ⟨23, _⟩ => ⟨S_, .i32⟩
  | .hbm, ⟨24, _⟩ => ⟨S2x512x512, .i32⟩
  | .hbm, ⟨25, _⟩ => ⟨S2x512x512, .i1⟩
  | .hbm, ⟨26, _⟩ => ⟨S_, .i32⟩
  | .hbm, ⟨27, _⟩ => ⟨S2x512x512, .i32⟩
  | .hbm, ⟨28, _⟩ => ⟨S2x512x512, .i32⟩
  | .hbm, ⟨29, _⟩ => ⟨S2x512x512, .i32⟩
  | .hbm, ⟨30, _⟩ => ⟨S2x512x512x1, .i32⟩
  | .hbm, ⟨31, _⟩ => ⟨S2x512x512x1, .f32⟩
  | .hbm, ⟨32, _⟩ => ⟨S2x512x512, .f32⟩
  | .hbm, ⟨33, _⟩ => ⟨S2x3x512, .f32⟩
  | .hbm, ⟨34, _⟩ => ⟨S128x128, .f32⟩
  | .hbm, ⟨35, _⟩ => ⟨S128x768, .f32⟩
  | .hbm, ⟨36, _⟩ => ⟨S2x32x512x512, .f32⟩
  | .hbm, ⟨37, _⟩ => ⟨S2x512x768, .f32⟩
  | .hbm, ⟨38, _⟩ => ⟨S2x512x512, .f32⟩
  | .hbm, ⟨39, _⟩ => ⟨S2x512x512, .f32⟩
  | .hbm, ⟨40, _⟩ => ⟨S2x512x512, .f32⟩
  | .hbm, ⟨41, _⟩ => ⟨S2x512x512x1, .f32⟩
  | .hbm, ⟨42, _⟩ => ⟨S2x512x512x1, .f32⟩
  | .hbm, ⟨43, _⟩ => ⟨S2x512x512x1, .f32⟩
  | .hbm, ⟨44, _⟩ => ⟨S2x512x512x3, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S32x128, .f32⟩
  | .local _ .vmem, ⟨9, _⟩ => ⟨S32, .f32⟩
  | .local _ .vmem, ⟨10, _⟩ => ⟨S128x768, .f32⟩
  | .local _ .vmem, ⟨11, _⟩ => ⟨S768, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x32x128x128, .f32⟩
  | .local _ .vmem, ⟨17, _⟩ => ⟨S1x32x128x128, .f32⟩
  | .local _ .vmem, ⟨18, _⟩ => ⟨S1x128x768, .f32⟩
  | .local _ .vmem, ⟨19, _⟩ => ⟨S1x128x768, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | .local _ .vmem, ⟨26, _⟩ => ⟨S128x128, .f32⟩
  | _, _ => ⟨S2x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev main_v19_3 : Ref sig .tc := ⟨.hbm, 39, rfl⟩
abbrev main_v19_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨3, ![2, 4, 4], ![false, false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_mult2 (i : grid0.Coords) : BitVec 32 :=
  let arg2 : BitVec 32 := BitVec.ofNat 32 (i 2).val
  let c128_i32_0 : BitVec 32 := 128#32
  let v2 : BitVec 32 := Scalar.muli arg2 c128_i32_0
  v2
def k0_off1 (i : grid0.Coords) : Fin 3 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v4 : Index := Scalar.indexCast v1
  let c0_1 : Index := 0#32
  ![0, v4.toNat, 0]
def k0_off2 (i : grid0.Coords) : Fin 3 → Nat :=
  let c0_2 : Index := 0#32
  let c0_3 : Index := 0#32
  let arg2 : BitVec 32 := BitVec.ofNat 32 (i 2).val
  let c128_i32_0 : BitVec 32 := 128#32
  let v2 : BitVec 32 := Scalar.muli arg2 c128_i32_0
  let v3 : BitVec 32 := v2
  let v10 : Index := Scalar.indexCast v3
  ![0, 0, v10.toNat]
def k0_off3 (i : grid0.Coords) : Fin 3 → Nat :=
  let c0_4 : Index := 0#32
  let c1 : Index := 1#32
  let arg2 : BitVec 32 := BitVec.ofNat 32 (i 2).val
  let c128_i32_0 : BitVec 32 := 128#32
  let v2 : BitVec 32 := Scalar.muli arg2 c128_i32_0
  let v3 : BitVec 32 := v2
  let v13 : Index := Scalar.indexCast v3
  ![0, 1, v13.toNat]
def k0_off4 (i : grid0.Coords) : Fin 3 → Nat :=
  let c0_5 : Index := 0#32
  let c2 : Index := 2#32
  let arg2 : BitVec 32 := BitVec.ofNat 32 (i 2).val
  let c128_i32_0 : BitVec 32 := 128#32
  let v2 : BitVec 32 := Scalar.muli arg2 c128_i32_0
  let v3 : BitVec 32 := v2
  let v16 : Index := Scalar.indexCast v3
  ![0, 2, v16.toNat]
def k0_cond2 (i : grid0.Coords) : BitVec 1 :=
  let arg2 : BitVec 32 := BitVec.ofNat 32 (i 2).val
  let c3_i32 : BitVec 32 := 3#32
  let v117 : BitVec 1 := Scalar.cmpi .eq arg2 c3_i32
  let v118 : BitVec 32 := Scalar.extui v117
  let c0_i32_47 : BitVec 32 := 0#32
  let v119 : BitVec 1 := Scalar.cmpi .ne v118 c0_i32_47
  v119

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x32x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x128x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

class Facts₀ : Prop where
  bcast_S_S2x512x512 : S_.BroadcastsInDim S2x512x512 (![] : Fin 0 → Fin S2x512x512.rank)
  bcast_S2x512x512_S2x512x512x1_0_1_2 : S2x512x512.BroadcastsInDim S2x512x512x1 (![0, 1, 2] : Fin 3 → Fin S2x512x512x1.rank)
  shapeCasts_S2x512x512x1_S2x512x512 : S2x512x512x1.ShapeCasts S2x512x512
  transposes_S2x512x3_S2x3x512_0_2_1 : S2x512x3.Transposes [0, 2, 1] S2x3x512
  transposes_S128x128_S128x128_1_0 : S128x128.Transposes [1, 0] S128x128
  transposes_S768x128_S128x768_1_0 : S768x128.Transposes [1, 0] S128x768
  h_S1x128x3 : 0 < S1x128x3.numel
  shapeCasts_S1x128x3_S128x3 : S1x128x3.ShapeCasts S128x3
  slices_S128x3_o0_0_S128x1 : S128x3.Slices ![0, 0] S128x1
  slices_S128x3_o0_1_S128x1 : S128x3.Slices ![0, 1] S128x1
  slices_S128x3_o0_2_S128x1 : S128x3.Slices ![0, 2] S128x1
  h_S1x1x128 : 0 < S1x1x128.numel
  shapeCasts_S1x1x128_S128 : S1x1x128.ShapeCasts S128
  shapeCasts_S128_S1x128 : S128.ShapeCasts S1x128
  broadcasts_S1x128_S128x128 : S1x128.Broadcasts S128x128
  broadcasts_S128x1_S128x128 : S128x1.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S128_S128_0 : ∀ a, (![0] : Fin 1 → Nat) a + S128.size a ≤ S128.size a
  h_S128 : 0 < S128.numel
  shapeCasts_S128x128_S128x128x1 : S128x128.ShapeCasts S128x128x1
  shapeCasts_S128_S1x1x128 : S128.ShapeCasts S1x1x128
  broadcasts_S128x128x1_S128x128x128 : S128x128x1.Broadcasts S128x128x128
  broadcasts_S1x1x128_S128x128x128 : S1x1x128.Broadcasts S128x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x128x128_S128x128 : S128x128x128.Reduces [1] S128x128
  shapeCasts_S128x128x128_S16384x128 : S128x128x128.ShapeCasts S16384x128
  bitsLt_bf16_f32 : FTy.bits .bf16 < FTy.bits .f32
  broadcasts_S1x128_S16384x128 : S1x128.Broadcasts S16384x128
  inb_S32x128_S32x128_0_0 : ∀ a, (![0, 0] : Fin 2 → Nat) a + S32x128.size a ≤ S32x128.size a
  h_S32x128 : 0 < S32x128.numel
  inb_S32_S32_0 : ∀ a, (![0] : Fin 1 → Nat) a + S32.size a ≤ S32.size a
  h_S32 : 0 < S32.numel
  shapeCasts_S32_S32x1 : S32.ShapeCasts S32x1
  broadcasts_S32x1_S32x16384 : S32x1.Broadcasts S32x16384
  shapeCasts_S32x16384_S32x128x128 : S32x16384.ShapeCasts S32x128x128
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S768_S768_0 : ∀ a, (![0] : Fin 1 → Nat) a + S768.size a ≤ S768.size a
  h_S768 : 0 < S768.numel
  shapeCasts_S768_S1x768 : S768.ShapeCasts S1x768
  broadcasts_S1x768_S128x768 : S1x768.Broadcasts S128x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S1x128x768 : S128x768.ShapeCasts S1x128x768
  concatenates_S2x512x512x1_S2x512x512x1_S2x512x512x1_S2x512x512x3_d3 : Shape.Concatenates [S2x512x512x1, S2x512x512x1, S2x512x512x1] S2x512x512x3 3
  gather_S1024x1_S2x512x512x1_S2x512x512x1_3_0_n_n_0_3_11_wf : GatherDims.WF S1024x1 S2x512x512x1 S2x512x512x1 [3] [0] [] [0] [] 3 ![1, 1]
  dot_S16384x128_S128x128_S16384x128_1_0_0_1_n_n_wf : DotDims.WF S16384x128 S128x128 S16384x128 [1] [0] [0] [1] [] []
  dot_S32x128_S16384x128_S32x16384_1_1_0_0_n_n_wf : DotDims.WF S32x128 S16384x128 S32x16384 [1] [1] [0] [0] [] []
  dot_S128x128_S128x768_S128x768_1_0_0_1_n_n_wf : DotDims.WF S128x128 S128x768 S128x768 [1] [0] [0] [1] [] []
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S1x128x3.size a ≤ S1x512x3.size a
  k0_off2_inb : ∀ i : grid0.Coords, ∀ a, (k0_off2 i) a + S1x1x128.size a ≤ S1x3x512.size a
  k0_off3_inb : ∀ i : grid0.Coords, ∀ a, (k0_off3 i) a + S1x1x128.size a ≤ S1x3x512.size a
  k0_off4_inb : ∀ i : grid0.Coords, ∀ a, (k0_off4 i) a + S1x1x128.size a ≤ S1x3x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S2x512x3.size a
  hwx0_0 : ∀ i : grid0.Coords, EltTy.bits .f32 = 32 ∨ (Rect.block (s := S2x512x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S2x3x512.size a
  hwx0_1 : ∀ i : grid0.Coords, EltTy.bits .f32 = 32 ∨ (Rect.block (s := S2x3x512) S1x3x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x768.size a ≤ S128x768.size a
  hwx0_8 : ∀ i : grid0.Coords, EltTy.bits .f32 = 32 ∨ (Rect.block (s := S128x768) S128x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768.size a ≤ S768.size a
  hwx0_9 : ∀ i : grid0.Coords, EltTy.bits .f32 = 32 ∨ (Rect.block (s := S768) S768.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x128.size a ≤ S2x512x512.size a
  hwx0_10 : ∀ i : grid0.Coords, EltTy.bits .f32 = 32 ∨ (Rect.block (s := S2x512x512) S1x128x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x128.size a ≤ S2x512x512.size a
  hwx0_11 : ∀ i : grid0.Coords, EltTy.bits .f32 = 32 ∨ (Rect.block (s := S2x512x512) S1x128x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x32x128x128.size a ≤ S2x32x512x512.size a
  hwx0_12 : ∀ i : grid0.Coords, EltTy.bits .f32 = 32 ∨ (Rect.block (s := S2x32x512x512) S1x32x128x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128x768.size a ≤ S2x512x768.size a
  hwx0_13 : ∀ i : grid0.Coords, EltTy.bits .f32 = 32 ∨ (Rect.block (s := S2x512x768) S1x128x768.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128x128.size a ≤ S2x512x512.size a
  hwx0_14 : ∀ i : grid0.Coords, EltTy.bits .f32 = 32 ∨ (Rect.block (s := S2x512x512) S1x128x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128x128.size a ≤ S2x512x512.size a
  hwx0_15 : ∀ i : grid0.Coords, EltTy.bits .f32 = 32 ∨ (Rect.block (s := S2x512x512) S1x128x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128x128.size a ≤ S2x512x512.size a
  hwx0_16 : ∀ i : grid0.Coords, EltTy.bits .f32 = 32 ∨ (Rect.block (s := S2x512x512) S1x128x128.size (cc0_transform_16 i) (hinb0_16 i)).WholeWords (EltTy.packing .f32)

variable [Facts₀]

def gather_S1024x1_S2x512x512x1_S2x512x512x1_3_0_n_n_0_3_11 : GatherDims S1024x1 S2x512x512x1 S2x512x512x1 where
  offsetDims := [3]
  collapsedSliceDims := [0]
  operandBatchingDims := []
  startIndicesBatchingDims := []
  startIndexMap := [0]
  indexVectorDim := 3
  sliceSizes := ![1, 1]
  wf := gather_S1024x1_S2x512x512x1_S2x512x512x1_3_0_n_n_0_3_11_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S32x128_S16384x128_S32x16384_1_1_0_0_n_n : DotDims S32x128 S16384x128 S32x16384 where
  lhsContracting := [1]
  rhsContracting := [1]
  lhsNonContracting := [0]
  rhsNonContracting := [0]
  lhsBatch := []
  rhsBatch := []
  wf := dot_S32x128_S16384x128_S32x16384_1_1_0_0_n_n_wf
def dot_S128x128_S128x768_S128x768_1_0_0_1_n_n : DotDims S128x128 S128x768 S128x768 where
  lhsContracting := [1]
  rhsContracting := [0]
  lhsNonContracting := [0]
  rhsNonContracting := [1]
  lhsBatch := []
  rhsBatch := []
  wf := dot_S128x128_S128x768_S128x768_1_0_0_1_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S128x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x128x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x128x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v19_0) S1x32x128x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v19_1) S1x128x768.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v19_2) S1x128x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v19_3) S1x128x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v19_4) S1x128x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | 14 => fun _ => false | 15 => fun _ => false | 16 => fun _ => false | ⟨_ + 17, h⟩ => absurd h (Nat.not_lt.2 (Nat.le_add_left _ _))

class Facts : Prop extends Facts₀ where

variable [Facts]
-- ==== ReferenceIdeal.lean ====
abbrev S2x512x3 : Shape := ⟨3, ![2, 512, 3]⟩
abbrev S2x512 : Shape := ⟨2, ![2, 512]⟩
abbrev S2x512x512 : Shape := ⟨3, ![2, 512, 512]⟩
abbrev S128 : Shape := ⟨1, ![128]⟩
abbrev S1024x1 : Shape := ⟨2, ![1024, 1]⟩
abbrev S128x128 : Shape := ⟨2, ![128, 128]⟩
abbrev S32x128 : Shape := ⟨2, ![32, 128]⟩
abbrev S32 : Shape := ⟨1, ![32]⟩
abbrev S768x128 : Shape := ⟨2, ![768, 128]⟩
abbrev S768 : Shape := ⟨1, ![768]⟩
abbrev S2x1x512x3 : Shape := ⟨4, ![2, 1, 512, 3]⟩
abbrev S2x512x1x3 : Shape := ⟨4, ![2, 512, 1, 3]⟩
abbrev S2x512x512x3 : Shape := ⟨4, ![2, 512, 512, 3]⟩
abbrev S_ : Shape := ⟨0, ![]⟩
abbrev S2x512x512x1 : Shape := ⟨4, ![2, 512, 512, 1]⟩
abbrev S1x1x1x128 : Shape := ⟨4, ![1, 1, 1, 128]⟩
abbrev S2x512x512x128 : Shape := ⟨4, ![2, 512, 512, 128]⟩
abbrev S2x512x512x32 : Shape := ⟨4, ![2, 512, 512, 32]⟩
abbrev S1x1x1x32 : Shape := ⟨4, ![1, 1, 1, 32]⟩
abbrev S2x32x512x512 : Shape := ⟨4, ![2, 32, 512, 512]⟩
abbrev S2x512x128 : Shape := ⟨3, ![2, 512, 128]⟩
abbrev S2x512x768 : Shape := ⟨3, ![2, 512, 768]⟩
abbrev S1x1x768 : Shape := ⟨3, ![1, 1, 768]⟩

abbrev nBuf : Space → Nat
  | .hbm => 91
  | .vmem => 0
  | .smem => 0
  | _ => 0

abbrev bufTy : (tb : Table) → Fin (tcTables nBuf tb) → BufTy
  | .hbm, ⟨0, _⟩ => ⟨S2x512x3, .f32⟩
  | .hbm, ⟨1, _⟩ => ⟨S2x512, .i32⟩
  | .hbm, ⟨2, _⟩ => ⟨S2x512x512, .i32⟩
  | .hbm, ⟨3, _⟩ => ⟨S128, .f32⟩
  | .hbm, ⟨4, _⟩ => ⟨S128, .f32⟩
  | .hbm, ⟨5, _⟩ => ⟨S1024x1, .f32⟩
  | .hbm, ⟨6, _⟩ => ⟨S1024x1, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S32, .f32⟩
  | .hbm, ⟨11, _⟩ => ⟨S768x128, .f32⟩
  | .hbm, ⟨12, _⟩ => ⟨S768, .f32⟩
  | .hbm, ⟨13, _⟩ => ⟨S2x1x512x3, .f32⟩
  | .hbm, ⟨14, _⟩ => ⟨S2x512x1x3, .f32⟩
  | .hbm, ⟨15, _⟩ => ⟨S2x512x512x3, .f32⟩
  | .hbm, ⟨16, _⟩ => ⟨S2x512x512x3, .f32⟩
  | .hbm, ⟨17, _⟩ => ⟨S2x512x512x3, .f32⟩
  | .hbm, ⟨18, _⟩ => ⟨S2x512x512x3, .f32⟩
  | .hbm, ⟨19, _⟩ => ⟨S_, .f32⟩
  | .hbm, ⟨20, _⟩ => ⟨S2x512x512, .f32⟩
  | .hbm, ⟨21, _⟩ => ⟨S2x512x512, .f32⟩
  | .hbm, ⟨22, _⟩ => ⟨S2x512x512x1, .f32⟩
  | .hbm, ⟨23, _⟩ => ⟨S_, .f32⟩
  | .hbm, ⟨24, _⟩ => ⟨S2x512x512x1, .f32⟩
  | .hbm, ⟨25, _⟩ => ⟨S2x512x512x1, .f32⟩
  | .hbm, ⟨26, _⟩ => ⟨S2x512x512x3, .f32⟩
  | .hbm, ⟨27, _⟩ => ⟨S2x512x512x3, .f32⟩
  | .hbm, ⟨28, _⟩ => ⟨S_, .i32⟩
  | .hbm, ⟨29, _⟩ => ⟨S2x512x512, .i32⟩
  | .hbm, ⟨30, _⟩ => ⟨S2x512x512, .i1⟩
  | .hbm, ⟨31, _⟩ => ⟨S_, .i32⟩
  | .hbm, ⟨32, _⟩ => ⟨S2x512x512, .i32⟩
  | .hbm, ⟨33, _⟩ => ⟨S2x512x512, .i32⟩
  | .hbm, ⟨34, _⟩ => ⟨S2x512x512, .i32⟩
  | .hbm, ⟨35, _⟩ => ⟨S2x512x512x1, .i32⟩
  | .hbm, ⟨36, _⟩ => ⟨S2x512x512x1, .f32⟩
  | .hbm, ⟨37, _⟩ => ⟨S2x512x512, .f32⟩
  | .hbm, ⟨38, _⟩ => ⟨S_, .i32⟩
  | .hbm, ⟨39, _⟩ => ⟨S2x512x512, .i32⟩
  | .hbm, ⟨40, _⟩ => ⟨S2x512x512, .i1⟩
  | .hbm, ⟨41, _⟩ => ⟨S_, .i32⟩
  | .hbm, ⟨42, _⟩ => ⟨S2x512x512, .i32⟩
  | .hbm, ⟨43, _⟩ => ⟨S2x512x512, .i32⟩
  | .hbm, ⟨44, _⟩ => ⟨S2x512x512, .i32⟩
  | .hbm, ⟨45, _⟩ => ⟨S2x512x512x1, .i32⟩
  | .hbm, ⟨46, _⟩ => ⟨S2x512x512x1, .f32⟩
  | .hbm, ⟨47, _⟩ => ⟨S2x512x512, .f32⟩
  | .hbm, ⟨48, _⟩ => ⟨S2x512x512, .f32⟩
  | .hbm, ⟨49, _⟩ => ⟨S2x512x512, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S2x512x512x1, .f32⟩
  | .hbm, ⟨55, _⟩ => ⟨S1x1x1x128, .f32⟩
  | .hbm, ⟨56, _⟩ => ⟨S2x512x512x128, .f32⟩
  | .hbm, ⟨57, _⟩ => ⟨S2x512x512x128, .f32⟩
  | .hbm, ⟨58, _⟩ => ⟨S2x512x512x128, .f32⟩
  | .hbm, ⟨59, _⟩ => ⟨S1x1x1x128, .f32⟩
  | .hbm, ⟨60, _⟩ => ⟨S2x512x512x128, .f32⟩
  | .hbm, ⟨61, _⟩ => ⟨S2x512x512x128, .f32⟩
  | .hbm, ⟨62, _⟩ => ⟨S_, .f32⟩
  | .hbm, ⟨63, _⟩ => ⟨S2x512x512x128, .f32⟩
  | .hbm, ⟨64, _⟩ => ⟨S2x512x512x128, .f32⟩
  | .hbm, ⟨65, _⟩ => ⟨S2x512x512x128, .f32⟩
  | .hbm, ⟨66, _⟩ => ⟨S2x512x512x128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x1x1x128, .f32⟩
  | .hbm, ⟨71, _⟩ => ⟨S2x512x512x128, .f32⟩
  | .hbm, ⟨72, _⟩ => ⟨S2x512x512x128, .f32⟩
  | .hbm, ⟨73, _⟩ => ⟨S2x512x512x128, .f32⟩
  | .hbm, ⟨74, _⟩ => ⟨S1x1x1x128, .f32⟩
  | .hbm, ⟨75, _⟩ => ⟨S2x512x512x128, .f32⟩
  | .hbm, ⟨76, _⟩ => ⟨S2x512x512x128, .f32⟩
  | .hbm, ⟨77, _⟩ => ⟨S_, .f32⟩
  | .hbm, ⟨78, _⟩ => ⟨S2x512x512x128, .f32⟩
  | .hbm, ⟨79, _⟩ => ⟨S2x512x512x128, .f32⟩
  | .hbm, ⟨80, _⟩ => ⟨S2x512x512x32, .f32⟩
  | .hbm, ⟨81, _⟩ => ⟨S1x1x1x32, .f32⟩
  | .hbm, ⟨82, _⟩ => ⟨S2x512x512x32, .f32⟩
  | .hbm, ⟨83, _⟩ => ⟨S2x512x512x32, .f32⟩
  | .hbm, ⟨84, _⟩ => ⟨S2x32x512x512, .f32⟩
  | .hbm, ⟨85, _⟩ => ⟨S_, .f32⟩
  | .hbm, ⟨86, _⟩ => ⟨S2x512x128, .f32⟩
  | .hbm, ⟨87, _⟩ => ⟨S2x512x768, .f32⟩
  | .hbm, ⟨88, _⟩ => ⟨S1x1x768, .f32⟩
  | .hbm, ⟨89, _⟩ => ⟨S2x512x768, .f32⟩
  | .hbm, ⟨90, _⟩ => ⟨S2x512x768, .f32⟩
  | _, _ => ⟨S2x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_6 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  bcast_S2x512x3_S2x1x512x3_0_2_3 : S2x512x3.BroadcastsInDim S2x1x512x3 (![0, 2, 3] : Fin 3 → Fin S2x1x512x3.rank)
  bcast_S2x512x3_S2x512x1x3_0_1_3 : S2x512x3.BroadcastsInDim S2x512x1x3 (![0, 1, 3] : Fin 3 → Fin S2x512x1x3.rank)
  bcast_S2x1x512x3_S2x512x512x3_0_1_2_3 : S2x1x512x3.BroadcastsInDim S2x512x512x3 (![0, 1, 2, 3] : Fin 4 → Fin S2x512x512x3.rank)
  bcast_S2x512x1x3_S2x512x512x3_0_1_2_3 : S2x512x1x3.BroadcastsInDim S2x512x512x3 (![0, 1, 2, 3] : Fin 4 → Fin S2x512x512x3.rank)
  reducesTo_S2x512x512x3_S2x512x512_d3 : S2x512x512x3.ReducesTo [3] S2x512x512
  h_S_ : 0 < S_.numel
  bcast_S2x512x512_S2x512x512x1_0_1_2 : S2x512x512.BroadcastsInDim S2x512x512x1 (![0, 1, 2] : Fin 3 → Fin S2x512x512x1.rank)
  bcast_S_S2x512x512x1 : S_.BroadcastsInDim S2x512x512x1 (![] : Fin 0 → Fin S2x512x512x1.rank)
  bcast_S2x512x512x1_S2x512x512x3_0_1_2_3 : S2x512x512x1.BroadcastsInDim S2x512x512x3 (![0, 1, 2, 3] : Fin 4 → Fin S2x512x512x3.rank)
  bcast_S_S2x512x512 : S_.BroadcastsInDim S2x512x512 (![] : Fin 0 → Fin S2x512x512.rank)
  shapeCasts_S2x512x512x1_S2x512x512 : S2x512x512x1.ShapeCasts S2x512x512
  bcast_S_S128 : S_.BroadcastsInDim S128 (![] : Fin 0 → Fin S128.rank)
  bcast_S128_S1x1x1x128_3 : S128.BroadcastsInDim S1x1x1x128 (![3] : Fin 1 → Fin S1x1x1x128.rank)
  bcast_S2x512x512x1_S2x512x512x128_0_1_2_3 : S2x512x512x1.BroadcastsInDim S2x512x512x128 (![0, 1, 2, 3] : Fin 4 → Fin S2x512x512x128.rank)
  bcast_S1x1x1x128_S2x512x512x128_0_1_2_3 : S1x1x1x128.BroadcastsInDim S2x512x512x128 (![0, 1, 2, 3] : Fin 4 → Fin S2x512x512x128.rank)
  bcast_S_S2x512x512x128 : S_.BroadcastsInDim S2x512x512x128 (![] : Fin 0 → Fin S2x512x512x128.rank)
  bcast_S32_S1x1x1x32_3 : S32.BroadcastsInDim S1x1x1x32 (![3] : Fin 1 → Fin S1x1x1x32.rank)
  bcast_S1x1x1x32_S2x512x512x32_0_1_2_3 : S1x1x1x32.BroadcastsInDim S2x512x512x32 (![0, 1, 2, 3] : Fin 4 → Fin S2x512x512x32.rank)
  transposes_S2x512x512x32_S2x32x512x512_0_3_1_2 : S2x512x512x32.Transposes [0, 3, 1, 2] S2x32x512x512
  reducesTo_S2x512x512x128_S2x512x128_d2 : S2x512x512x128.ReducesTo [2] S2x512x128
  bcast_S768_S1x1x768_2 : S768.BroadcastsInDim S1x1x768 (![2] : Fin 1 → Fin S1x1x768.rank)
  bcast_S1x1x768_S2x512x768_0_1_2 : S1x1x768.BroadcastsInDim S2x512x768 (![0, 1, 2] : Fin 3 → Fin S2x512x768.rank)
  gather_S1024x1_S2x512x512x1_S2x512x512x1_3_0_n_n_0_3_11_wf : GatherDims.WF S1024x1 S2x512x512x1 S2x512x512x1 [3] [0] [] [0] [] 3 ![1, 1]
  dot_S2x512x512x128_S128x128_S2x512x512x128_3_1_012_0_n_n_wf : DotDims.WF S2x512x512x128 S128x128 S2x512x512x128 [3] [1] [0, 1, 2] [0] [] []
  dot_S2x512x512x128_S32x128_S2x512x512x32_3_1_012_0_n_n_wf : DotDims.WF S2x512x512x128 S32x128 S2x512x512x32 [3] [1] [0, 1, 2] [0] [] []
  dot_S2x512x128_S768x128_S2x512x768_2_1_01_0_n_n_wf : DotDims.WF S2x512x128 S768x128 S2x512x768 [2] [1] [0, 1] [0] [] []

variable [Facts₀]

def gather_S1024x1_S2x512x512x1_S2x512x512x1_3_0_n_n_0_3_11 : GatherDims S1024x1 S2x512x512x1 S2x512x512x1 where
  offsetDims := [3]
  collapsedSliceDims := [0]
  operandBatchingDims := []
  startIndicesBatchingDims := []
  startIndexMap := [0]
  indexVectorDim := 3
  sliceSizes := ![1, 1]
  wf := gather_S1024x1_S2x512x512x1_S2x512x512x1_3_0_n_n_0_3_11_wf
def dot_S2x512x512x128_S128x128_S2x512x512x128_3_1_012_0_n_n : DotDims S2x512x512x128 S128x128 S2x512x512x128 where
  lhsContracting := [3]
  rhsContracting := [1]
  lhsNonContracting := [0, 1, 2]
  rhsNonContracting := [0]
  lhsBatch := []
  rhsBatch := []
  wf := dot_S2x512x512x128_S128x128_S2x512x512x128_3_1_012_0_n_n_wf
def dot_S2x512x512x128_S32x128_S2x512x512x32_3_1_012_0_n_n : DotDims S2x512x512x128 S32x128 S2x512x512x32 where
  lhsContracting := [3]
  rhsContracting := [1]
  lhsNonContracting := [0, 1, 2]
  rhsNonContracting := [0]
  lhsBatch := []
  rhsBatch := []
  wf := dot_S2x512x512x128_S32x128_S2x512x512x32_3_1_012_0_n_n_wf
def dot_S2x512x128_S768x128_S2x512x768_2_1_01_0_n_n : DotDims S2x512x128 S768x128 S2x512x768 where
  lhsContracting := [2]
  rhsContracting := [1]
  lhsNonContracting := [0, 1]
  rhsNonContracting := [0]
  lhsBatch := []
  rhsBatch := []
  wf := dot_S2x512x128_S768x128_S2x512x768_2_1_01_0_n_n_wf

class Facts : Prop extends Facts₀ where

variable [Facts]
-- ==== Proof.KI.Runs.lean ====
import proofs.«407687_j69655779606854_3_alg».proof.Proof.Gen.KernelIdeal.Launch
import proofs.«407687_j69655779606854_3_alg».proof.Proof.Gen.KernelIdeal.Skeleton
import proofs.«407687_j69655779606854_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).1 2).trans (((dats 0 c).arrAt_in 2 rfl _).trans ((hA c 2).trans (V_main_arg3 m c))),
    ((h c).1 3).trans (((dats 0 c).arrAt_in 3 rfl _).trans ((hA c 3).trans (V_main_arg4 m c))),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).1 5).trans (((dats 0 c).arrAt_in 5 rfl _).trans ((hA c 5).trans (V_main_arg8 m c))),
    ((h c).1 6).trans (((dats 0 c).arrAt_in 6 rfl _).trans ((hA c 6).trans (V_main_arg9 m c))),
    ((h c).1 7).trans (((dats 0 c).arrAt_in 7 rfl _).trans ((hA c 7).trans (V_main_arg10 m c))),
    ((h c).2 main_arg11 (Pipeline.mem_restRefs_of main_arg11 (by decide) (by decide))).trans (W_main_arg11 m dats c),
    ((h c).1 9).trans (((dats 0 c).arrAt_in 9 rfl _).trans ((hA c 9).trans (V_main_arg12 m c)))⟩) h

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
theorem liveAt0_16 : ∀ t : Fin cfg0.N, cfg0.idle 16 (grid0.coords t) = false := by decide +kernel

theorem idleAt0_13_A : ∀ t : Fin cfg0.N, cond0_0 (grid0.coords t) → ¬cond0_1 (grid0.coords t) → cfg0.idle 13 (grid0.coords t) = true := by decide +kernel
theorem noFlush0_13_A : ∀ t : Fin cfg0.N, cond0_0 (grid0.coords t) → ¬cond0_1 (grid0.coords t) → (cfg0.win 13).flush t = false := by decide +kernel
theorem idleAt0_13_B : ∀ t : Fin cfg0.N, ¬cond0_0 (grid0.coords t) → ¬cond0_1 (grid0.coords t) → cfg0.idle 13 (grid0.coords t) = true := by decide +kernel
theorem noFlush0_13_B : ∀ t : Fin cfg0.N, ¬cond0_0 (grid0.coords t) → ¬cond0_1 (grid0.coords t) → (cfg0.win 13).flush t = false := by decide +kernel

theorem liveAt0_13_C : ∀ t : Fin cfg0.N, ¬cond0_0 (grid0.coords t) → cond0_1 (grid0.coords t) → cfg0.idle 13 (grid0.coords t) = false := by decide +kernel

abbrev VO0_12 : View sig .tc .vmem S1x32x128x128 .f32 := (Memref.whole cc0_stg12_0 : Memref sig .tc .vmem S1x32x128x128 .f32).view

abbrev VO0_13 : View sig .tc .vmem S1x128x768 .f32 := (Memref.whole cc0_stg13_0 : Memref sig .tc .vmem S1x128x768 .f32).view

abbrev VO0_14 : View sig .tc .vmem S1x128x128 .f32 := (Memref.whole cc0_stg14_0 : Memref sig .tc .vmem S1x128x128 .f32).view

abbrev VO0_15 : View sig .tc .vmem S1x128x128 .f32 := (Memref.whole cc0_stg15_0 : Memref sig .tc .vmem S1x128x128 .f32).view

abbrev VO0_16 : View sig .tc .vmem S1x128x128 .f32 := (Memref.whole cc0_stg16_0 : Memref sig .tc .vmem S1x128x128 .f32).view
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x32x128x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128x768 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x128x128 .f32 := win0_16.stage (cfg0.slots t 16)
abbrev hs0_16 (t : Fin cfg0.N) : (ms0_16 t).IsWhole := hstage0_16 ((cfg0.slots t 16).cast nbuf0_16)

abbrev scM0_0 : Memref sig .tc .vmem S128x128 .f32 := Memref.whole cc0_scratch0

abbrev VS0_0 : View sig .tc .vmem S128x128 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.RefRun.lean ====
import proofs.«407687_j69655779606854_3_alg».proof.Defs
import proofs.«407687_j69655779606854_3_alg».proof.Proof.Gen.ReferenceIdeal.Run
import proofs.«407687_j69655779606854_3_alg».proof.Proof.Gen.ReferenceIdeal.Read
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr (s : Shape) : Type := s.Idx → EReal

abbrev SPos : Shape := ⟨3, ![2, 512, 3]⟩
abbrev SEdge : Shape := ⟨3, ![2, 512, 512]⟩
abbrev SK : Shape := ⟨1, ![128]⟩
abbrev SW1 : Shape := ⟨2, ![128, 128]⟩
abbrev SW2 : Shape := ⟨2, ![32, 128]⟩
abbrev SH : Shape := ⟨1, ![32]⟩
abbrev SPW : Shape := ⟨2, ![768, 128]⟩
abbrev SE : Shape := ⟨1, ![768]⟩
abbrev SAttn : Shape := ⟨4, ![2, 32, 512, 512]⟩
abbrev SMerged : Shape := ⟨3, ![2, 512, 768]⟩
abbrev SNd : Shape := ⟨4, ![2, 512, 512, 3]⟩

def eps : EReal := Ideal.ofBits .f32 0x3727C5AC#32
def hundredth : EReal := Ideal.ofBits .f32 0x3C23D70A#32
def negHalf : EReal := Ideal.ofBits .f32 0xBF000000#32
def one : EReal := Ideal.ofBits .f32 0x3F800000#32
def zero : EReal := Ideal.ofBits .f32 0x00000000#32

def rootTwoPi : EReal := Ideal.ofBits .f32 0x40206C99#32

def invRootTwoPi : EReal := ((4194304 / 10513561 : ℝ) : EReal)

def delta (pos : Arr SPos) (b : Fin 2) (i j : Fin 512) (d : Fin 3) : EReal :=
  pos (ix3 b j d) - pos (ix3 b i d)

def dist (pos : Arr SPos) (b : Fin 2) (i j : Fin 512) : EReal :=
  Ideal.sqrt (delta pos b i j 0 * delta pos b i j 0 + delta pos b i j 1 * delta pos b i j 1 + delta pos b i j 2 * delta pos b i j 2)

def ndQuot (pos : Arr SPos) (b : Fin 2) (i j : Fin 512) (d : Fin 3) : EReal :=
  Ideal.div (delta pos b i j d) (dist pos b i j + eps)

def ndRecip (pos : Arr SPos) (b : Fin 2) (i j : Fin 512) (d : Fin 3) : EReal :=
  delta pos b i j d * Ideal.div one (dist pos b i j + eps)

def tval (pos : Arr SPos) (gamma beta : Arr SEdge) (b : Fin 2) (i j : Fin 512) : EReal :=
  gamma (ix3 b i j) * dist pos b i j + beta (ix3 b i j)

def sigma (stds : Arr SK) (k : Fin 128) : EReal :=
  max (stds (ix1 k)) (-(stds (ix1 k))) + hundredth

def psiQuot (pos : Arr SPos) (gamma beta : Arr SEdge) (means stds : Arr SK) (b : Fin 2) (i j : Fin 512) (k : Fin 128) : EReal :=
  Ideal.div
    (Ideal.exp (negHalf * Ideal.div (tval pos gamma beta b i j - means (ix1 k)) (sigma stds k)
      * Ideal.div (tval pos gamma beta b i j - means (ix1 k)) (sigma stds k)))
    (sigma stds k * rootTwoPi)

def psiRecip (pos : Arr SPos) (gamma beta : Arr SEdge) (means stds : Arr SK) (b : Fin 2) (i j : Fin 512) (k : Fin 128) : EReal :=
  Ideal.exp ((tval pos gamma beta b i j - means (ix1 k)) * (tval pos gamma beta b i j - means (ix1 k))
      * (negHalf * Ideal.div one (sigma stds k) * Ideal.div one (sigma stds k)))
    * (Ideal.div one (sigma stds k) * invRootTwoPi)

abbrev Psi : Type := Fin 2 → Fin 512 → Fin 512 → Fin 128 → EReal

def hidden (psi : Psi) (w1 : Arr SW1) (b1 : Arr SK) (b : Fin 2) (i j : Fin 512) (h : Fin 128) : EReal :=
  max (∑ k : Fin 128, psi b i j k * w1 (ix2 h k) + b1 (ix1 h)) 0

def attn (psi : Psi) (w1 : Arr SW1) (b1 : Arr SK) (w2 : Arr SW2) (b2 : Arr SH) : Arr SAttn := fun y =>
  ∑ k : Fin 128, hidden psi w1 b1 (y 0) (y 2) (y 3) k * w2 (ix2 (y 1) k) + b2 (ix1 (y 1))

def pooled (psi : Psi) (b : Fin 2) (i : Fin 512) (k : Fin 128) : EReal :=
  ∑ j : Fin 512, psi b i j k

def merged (psi : Psi) (projW : Arr SPW) (projB : Arr SE) : Arr SMerged := fun y =>
  ∑ k : Fin 128, pooled psi (y 0) (y 1) k * projW (ix2 (y 2) k) + projB (ix1 (y 2))

def ndArr (nd : Fin 2 → Fin 512 → Fin 512 → Fin 3 → EReal) : Arr SNd := fun y => nd (y 0) (y 1) (y 2) (y 3)

end Cert.Spec

end
-- ==== Proof.Real.lean ====
import proofs.«407687_j69655779606854_3_alg».proof.Proof.Spec

namespace Cert.Spec

open Idealize.ShloMosaic

def IsReal {s : Shape} (a : Arr s) : Prop := ∀ y : s.Idx, ∃ r : ℝ, a y = (r : EReal)

end Cert.Spec
-- ==== Proof.EdgeTables.lean ====
import proofs.«407687_j69655779606854_3_alg».proof.KernelIdeal
import proofs.«407687_j69655779606854_3_alg».proof.Proof.RefRun
import proofs.«407687_j69655779606854_3_alg».proof.Proof.Real

noncomputable section

namespace Cert.Proof.Edge

open Idealize.ShloMosaic Cert.KernelIdeal Cert.KernelIdeal.Facts₀

variable [Cert.KernelIdeal.Facts₀]

def edgeParam (nte : (⟨S2x512x512, .i32⟩ : BufTy).Contents (Elt Ideal)) (tab : (⟨S1024x1, .f32⟩ : BufTy).Contents (Elt Ideal)) :
    (⟨S2x512x512, .f32⟩ : BufTy).Contents (Elt Ideal) :=
  shapeCast _ (Host.gather gather_S1024x1_S2x512x512x1_S2x512x512x1_3_0_n_n_0_3_11 tab
    (broadcastInDim S2x512x512x1 ![0, 1, 2] bcast_S2x512x512_S2x512x512x1_0_1_2
      (select (cmpi .slt nte (broadcastInDim S2x512x512 ![] bcast_S_S2x512x512 (constantI S_ 32 0#32)))
        (addi nte (broadcastInDim S2x512x512 ![] bcast_S_S2x512x512 (constantI S_ 32 1024#32))) nte))) shapeCasts_S2x512x512x1_S2x512x512

theorem edgeParam_real (nte : (⟨S2x512x512, .i32⟩ : BufTy).Contents (Elt Ideal)) (tab : (⟨S1024x1, .f32⟩ : BufTy).Contents (Elt Ideal))
    (htab : Cert.Spec.IsReal (s := (⟨2, ![1024, 1]⟩ : Shape)) tab) :
    Cert.Spec.IsReal (s := Cert.Spec.SEdge) (edgeParam nte tab) := by
  intro y
  unfold edgeParam shapeCast Host.gather
  exact htab _

end Cert.Proof.Edge

end
-- ==== Proof.Tile.lean ====
import proofs.«407687_j69655779606854_3_alg».proof.Proof.Spec

noncomputable section

namespace Cert.Tile

open Idealize.ShloMosaic Idealize.ShloMosaic.ValueIdx Cert.Spec

abbrev SRows : Shape := ⟨3, ![1, 128, 3]⟩
abbrev SKeyRow : Shape := ⟨3, ![1, 1, 128]⟩
abbrev STile : Shape := ⟨3, ![1, 128, 128]⟩
abbrev SAcc : Shape := ⟨2, ![128, 128]⟩
abbrev SW1t : Shape := ⟨2, ![128, 128]⟩
abbrev SPWt : Shape := ⟨2, ![128, 768]⟩

def delta (rows : Arr SRows) (r : Arr SKeyRow) (d : Fin 3) (p q : Fin 128) : EReal :=
  r (ix3 0 0 q) - rows (ix3 0 p d)

def dist (rows : Arr SRows) (kx ky kz : Arr SKeyRow) (p q : Fin 128) : EReal :=
  Ideal.sqrt (delta rows kx 0 p q * delta rows kx 0 p q + delta rows ky 1 p q * delta rows ky 1 p q + delta rows kz 2 p q * delta rows kz 2 p q)

def invDist (rows : Arr SRows) (kx ky kz : Arr SKeyRow) (p q : Fin 128) : EReal :=
  Ideal.div one (dist rows kx ky kz p q + eps)

def invSigma (stds : Arr SK) (k : Fin 128) : EReal :=
  Ideal.div one (max (stds (ix1 k)) (-(stds (ix1 k))) + hundredth)

def psi (dst : Fin 128 → Fin 128 → EReal) (g bt : Arr STile) (means stds : Arr SK) (p q k : Fin 128) : EReal :=
  Ideal.exp ((g (ix3 0 p q) * dst p q + bt (ix3 0 p q) - means (ix1 k)) * (g (ix3 0 p q) * dst p q + bt (ix3 0 p q) - means (ix1 k))
      * (negHalf * invSigma stds k * invSigma stds k))
    * (invSigma stds k * invRootTwoPi)

def hid (ps : Fin 128 → Fin 128 → Fin 128 → EReal) (w1t : Arr SW1t) (b1 : Arr SK) (p q h : Fin 128) : EReal :=
  max (∑ k : Fin 128, ps p q k * w1t (ix2 k h) + b1 (ix1 h)) 0

def attn (ps : Fin 128 → Fin 128 → Fin 128 → EReal) (w1t : Arr SW1t) (b1 : Arr SK) (w2 : Arr SW2) (b2 : Arr SH) (h : Fin 32) (p q : Fin 128) : EReal :=
  ∑ k : Fin 128, w2 (ix2 h k) * hid ps w1t b1 p q k + b2 (ix1 h)

def rowSum (ps : Fin 128 → Fin 128 → Fin 128 → EReal) (p k : Fin 128) : EReal :=
  ∑ q : Fin 128, ps p q k

def merged (acc : Arr SAcc) (pwt : Arr SPWt) (pb : Arr SE) (p : Fin 128) (e : Fin 768) : EReal :=
  ∑ k : Fin 128, acc (ix2 p k) * pwt (ix2 k e) + pb (ix1 e)

end Cert.Tile

end
-- ==== Proof.Place.lean ====
import proofs.«407687_j69655779606854_3_alg».proof.Proof.Tile

noncomputable section

namespace Cert.Tile

open Idealize.ShloMosaic Idealize.ShloMosaic.ValueIdx Cert.Spec

def node (I : Fin 4) (p : Fin 128) : Fin 512 := ⟨I.val * 128 + p.val, by have := I.isLt; have := p.isLt; omega⟩

structure PosTile (pos : Arr SPos) (b : Fin 2) (I J : Fin 4) (rows : Arr SRows) (kx ky kz : Arr SKeyRow) : Prop where
  rows : ∀ (p : Fin 128) (d : Fin 3), rows (ix3 0 p d) = pos (ix3 b (node I p) d)
  kx : ∀ q : Fin 128, kx (ix3 0 0 q) = pos (ix3 b (node J q) 0)
  ky : ∀ q : Fin 128, ky (ix3 0 0 q) = pos (ix3 b (node J q) 1)
  kz : ∀ q : Fin 128, kz (ix3 0 0 q) = pos (ix3 b (node J q) 2)

def EdgeTile (e : Arr SEdge) (b : Fin 2) (I J : Fin 4) (g : Arr STile) : Prop :=
  ∀ p q : Fin 128, g (ix3 0 p q) = e (ix3 b (node I p) (node J q))

end Cert.Tile

end
-- ==== Proof.KV.Loads.lean ====
import proofs.«407687_j69655779606854_3_alg».proof.Proof.Gen.KernelIdeal.Skeleton
import proofs.«407687_j69655779606854_3_alg».proof.Proof.Place
import Idealize.ShloMosaic.Lib.Pipeline.Value
import Idealize.ShloMosaic.Lib.ValueIdx

noncomputable section

namespace Cert.KernelIdeal.Val

open Idealize.ShloMosaic Idealize.ShloMosaic.ValueIdx Cert.KernelIdeal Cert.KernelIdeal.Gen

def batch (i : grid0.Coords) : Fin 2 := ⟨(i 0).val, (i 0).isLt⟩
def rowTile (i : grid0.Coords) : Fin 4 := ⟨(i 1).val, (i 1).isLt⟩
def keyTile (i : grid0.Coords) : Fin 4 := ⟨(i 2).val, (i 2).isLt⟩

def ldRows (i : grid0.Coords) (x0 : Vec Ideal S1x512x3 .f32) : Vec Ideal S1x128x3 .f32 :=
  View.ld x0 (Rect.unit (s := S1x512x3) (k0_off1 i) S1x128x3.size (k0_off1_inb i))

def ldKx (i : grid0.Coords) (x1 : Vec Ideal S1x3x512 .f32) : Vec Ideal S1x1x128 .f32 :=
  View.ld x1 (Rect.unit (s := S1x3x512) (k0_off2 i) S1x1x128.size (k0_off2_inb i))

def ldKy (i : grid0.Coords) (x1 : Vec Ideal S1x3x512 .f32) : Vec Ideal S1x1x128 .f32 :=
  View.ld x1 (Rect.unit (s := S1x3x512) (k0_off3 i) S1x1x128.size (k0_off3_inb i))

def ldKz (i : grid0.Coords) (x1 : Vec Ideal S1x3x512 .f32) : Vec Ideal S1x1x128 .f32 :=
  View.ld x1 (Rect.unit (s := S1x3x512) (k0_off4 i) S1x1x128.size (k0_off4_inb i))

private theorem tileOff_toNat : ∀ n : Nat, n < 4 →
    (Scalar.indexCast (Scalar.muli (BitVec.ofNat 32 n) 128#32)).toNat = n * 128
  | 0, _ => rfl
  | 1, _ => rfl
  | 2, _ => rfl
  | 3, _ => rfl
  | n + 4, h => absurd h (by omega)

theorem ldRows_at (i : grid0.Coords) (x0 : Vec Ideal S1x512x3 .f32) (p : Fin 128) (d : Fin 3) :
    ldRows i x0 (ix3 0 p d) = x0 (ix3 0 (Cert.Tile.node (rowTile i) p) d) := by
  unfold ldRows
  refine congrArg x0 (funext fun a => Fin.ext ?_)
  match a with
  | ⟨0, _⟩ => rfl
  | ⟨1, _⟩ =>
    show k0_off1 i 1 + 1 * p.val = (i 1).val * 128 + p.val
    rw [show k0_off1 i 1 = (i 1).val * 128 from tileOff_toNat _ (i 1).isLt]
    omega
  | ⟨2, _⟩ =>
    show 0 + 1 * d.val = d.val
    omega

theorem ldKx_at (i : grid0.Coords) (x1 : Vec Ideal S1x3x512 .f32) (q : Fin 128) :
    ldKx i x1 (ix3 0 0 q) = x1 (ix3 0 0 (Cert.Tile.node (keyTile i) q)) := by
  unfold ldKx
  refine congrArg x1 (funext fun a => Fin.ext ?_)
  match a with
  | ⟨0, _⟩ => rfl
  | ⟨1, _⟩ => rfl
  | ⟨2, _⟩ =>
    show k0_off2 i 2 + 1 * q.val = (i 2).val * 128 + q.val
    rw [show k0_off2 i 2 = (i 2).val * 128 from tileOff_toNat _ (i 2).isLt]
    omega

theorem ldKy_at (i : grid0.Coords) (x1 : Vec Ideal S1x3x512 .f32) (q : Fin 128) :
    ldKy i x1 (ix3 0 0 q) = x1 (ix3 0 1 (Cert.Tile.node (keyTile i) q)) := by
  unfold ldKy
  refine congrArg x1 (funext fun a => Fin.ext ?_)
  match a with
  | ⟨0, _⟩ => rfl
  | ⟨1, _⟩ => rfl
  | ⟨2, _⟩ =>
    show k0_off3 i 2 + 1 * q.val = (i 2).val * 128 + q.val
    rw [show k0_off3 i 2 = (i 2).val * 128 from tileOff_toNat _ (i 2).isLt]
    omega

theorem ldKz_at (i : grid0.Coords) (x1 : Vec Ideal S1x3x512 .f32) (q : Fin 128) :
    ldKz i x1 (ix3 0 0 q) = x1 (ix3 0 2 (Cert.Tile.node (keyTile i) q)) := by
  unfold ldKz
  refine congrArg x1 (funext fun a => Fin.ext ?_)
  match a with
  | ⟨0, _⟩ => rfl
  | ⟨1, _⟩ => rfl
  | ⟨2, _⟩ =>
    show k0_off4 i 2 + 1 * q.val = (i 2).val * 128 + q.val
    rw [show k0_off4 i 2 = (i 2).val * 128 from tileOff_toNat _ (i 2).isLt]
    omega

theorem hz1 : (![0] : Fin 1 → Nat) = fun _ => 0 := funext (by decide)

theorem hz2 : (![0, 0] : Fin 2 → Nat) = fun _ => 0 := funext (by decide)

theorem hz3 : (![0, 0, 0] : Fin 3 → Nat) = fun _ => 0 := funext (by decide)

theorem hz4 : (![0, 0, 0, 0] : Fin 4 → Nat) = fun _ => 0 := funext (by decide)

end Cert.KernelIdeal.Val

end
-- ==== Proof.KV.Args.lean ====
import proofs.«407687_j69655779606854_3_alg».proof.Proof.KI.Runs
import proofs.«407687_j69655779606854_3_alg».proof.Proof.EdgeTables
import proofs.«407687_j69655779606854_3_alg».proof.Proof.KV.Loads

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

abbrev posA (c : Dev nD) : Cert.Spec.Arr Cert.Spec.SPos := m ((c : Thread nD τ).loc main_arg0)
abbrev meansA (c : Dev nD) : Cert.Spec.Arr Cert.Spec.SK := m ((c : Thread nD τ).loc main_arg3)
abbrev stdsA (c : Dev nD) : Cert.Spec.Arr Cert.Spec.SK := m ((c : Thread nD τ).loc main_arg4)
abbrev w1A (c : Dev nD) : Cert.Spec.Arr Cert.Spec.SW1 := m ((c : Thread nD τ).loc main_arg7)
abbrev b1A (c : Dev nD) : Cert.Spec.Arr Cert.Spec.SK := m ((c : Thread nD τ).loc main_arg8)
abbrev w2A (c : Dev nD) : Cert.Spec.Arr Cert.Spec.SW2 := m ((c : Thread nD τ).loc main_arg9)
abbrev b2A (c : Dev nD) : Cert.Spec.Arr Cert.Spec.SH := m ((c : Thread nD τ).loc main_arg10)
abbrev projWA (c : Dev nD) : Cert.Spec.Arr Cert.Spec.SPW := m ((c : Thread nD τ).loc main_arg11)
abbrev projBA (c : Dev nD) : Cert.Spec.Arr Cert.Spec.SE := m ((c : Thread nD τ).loc main_arg12)

abbrev gammaA (c : Dev nD) : Cert.Spec.Arr Cert.Spec.SEdge :=
  Cert.Proof.Edge.edgeParam (m ((c : Thread nD τ).loc main_arg2)) (m ((c : Thread nD τ).loc main_arg5))

abbrev betaA (c : Dev nD) : Cert.Spec.Arr Cert.Spec.SEdge :=
  Cert.Proof.Edge.edgeParam (m ((c : Thread nD τ).loc main_arg2)) (m ((c : Thread nD τ).loc main_arg6))

def PsiA (c : Dev nD) : Cert.Spec.Psi := fun b i j k =>
  Cert.Spec.psiRecip (posA m c) (gammaA m c) (betaA m c) (meansA m c) (stdsA m c) b i j k

abbrev bT (t : Fin cfg0.N) : Fin 2 := batch (grid0.coords t)
abbrev IT (t : Fin cfg0.N) : Fin 4 := rowTile (grid0.coords t)
abbrev JT (t : Fin cfg0.N) : Fin 4 := keyTile (grid0.coords t)

def part (Ψ : Cert.Spec.Psi) (b : Fin 2) (I : Fin 4) (p k : Fin 128) : (J : ℕ) → J < 4 → EReal
  | 0, _ => 0 + ∑ q : Fin 128, Ψ b (Cert.Tile.node I p) (Cert.Tile.node 0 q) k
  | J + 1, h => part Ψ b I p k J (Nat.lt_of_succ_lt h) + ∑ q : Fin 128, Ψ b (Cert.Tile.node I p) (Cert.Tile.node ⟨J + 1, h⟩ q) k

end Cert.KernelIdeal.Val

end
-- ==== Proof.KV.Blocks.lean ====
import proofs.«407687_j69655779606854_3_alg».proof.Proof.KI.Runs
import proofs.«407687_j69655779606854_3_alg».proof.Proof.KV.Loads
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

abbrev blk0 (c : Dev nD) (t : Fin cfg0.N) : Vec Ideal S1x512x3 .f32 := iblk m c 0 t
abbrev blk1 (c : Dev nD) (t : Fin cfg0.N) : Vec Ideal S1x3x512 .f32 := iblk m c 1 t
abbrev blk2 (c : Dev nD) (t : Fin cfg0.N) : Vec Ideal S128 .f32 := iblk m c 2 t
abbrev blk3 (c : Dev nD) (t : Fin cfg0.N) : Vec Ideal S128 .f32 := iblk m c 3 t
abbrev blk4 (c : Dev nD) (t : Fin cfg0.N) : Vec Ideal S128x128 .f32 := iblk m c 4 t
abbrev blk5 (c : Dev nD) (t : Fin cfg0.N) : Vec Ideal S128 .f32 := iblk m c 5 t
abbrev blk6 (c : Dev nD) (t : Fin cfg0.N) : Vec Ideal S32x128 .f32 := iblk m c 6 t
abbrev blk7 (c : Dev nD) (t : Fin cfg0.N) : Vec Ideal S32 .f32 := iblk m c 7 t
abbrev blk8 (c : Dev nD) (t : Fin cfg0.N) : Vec Ideal S128x768 .f32 := iblk m c 8 t
abbrev blk9 (c : Dev nD) (t : Fin cfg0.N) : Vec Ideal S768 .f32 := iblk m c 9 t
abbrev blk10 (c : Dev nD) (t : Fin cfg0.N) : Vec Ideal S1x128x128 .f32 := iblk m c 10 t
abbrev blk11 (c : Dev nD) (t : Fin cfg0.N) : Vec Ideal S1x128x128 .f32 := iblk m c 11 t

theorem idx0 : ∀ t : Fin cfg0.N, win0_0.index t (0 : Fin 3) = (grid0.coords t 0).val ∧ win0_0.index t (1 : Fin 3) = 0 ∧ win0_0.index t (2 : Fin 3) = 0 :=
  (by decide +kernel : ∀ t : Fin grid0.N, _)

theorem idx1 : ∀ t : Fin cfg0.N, win0_1.index t (0 : Fin 3) = (grid0.coords t 0).val ∧ win0_1.index t (1 : Fin 3) = 0 ∧ win0_1.index t (2 : Fin 3) = 0 :=
  (by decide +kernel : ∀ t : Fin grid0.N, _)

theorem idx10 : ∀ t : Fin cfg0.N, win0_10.index t (0 : Fin 3) = (grid0.coords t 0).val ∧ win0_10.index t (1 : Fin 3) = (grid0.coords t 1).val ∧ win0_10.index t (2 : Fin 3) = (grid0.coords t 2).val :=
  (by decide +kernel : ∀ t : Fin grid0.N, _)

theorem idx11 : ∀ t : Fin cfg0.N, win0_11.index t (0 : Fin 3) = (grid0.coords t 0).val ∧ win0_11.index t (1 : Fin 3) = (grid0.coords t 1).val ∧ win0_11.index t (2 : Fin 3) = (grid0.coords t 2).val :=
  (by decide +kernel : ∀ t : Fin grid0.N, _)

theorem blk0_at (c : Dev nD) (t : Fin cfg0.N) (n : Fin 512) (d : Fin 3) :
    blk0 m c t (ix3 0 n d) = V m c main_arg0 (ix3 (batch (grid0.coords t)) n d) := by
  obtain ⟨e0, e1, e2⟩ := idx0 t
  show V m c main_arg0 (((cfg0.win 0).blk t).view.emb (ix3 0 n d)) = V m c main_arg0 (ix3 (batch (grid0.coords t)) n d)
  refine congrArg (V m c main_arg0) (funext fun a => Fin.ext ?_)
  match a with
  | ⟨0, _⟩ => show win0_0.index t (0 : Fin 3) * 1 + 1 * 0 = (grid0.coords t 0).val; omega
  | ⟨1, _⟩ => show win0_0.index t (1 : Fin 3) * 512 + 1 * n.val = n.val; omega
  | ⟨2, _⟩ => show win0_0.index t (2 : Fin 3) * 3 + 1 * d.val = d.val; omega

theorem blk1_at (c : Dev nD) (t : Fin cfg0.N) (d : Fin 3) (n : Fin 512) :
    blk1 m c t (ix3 0 d n) = V m c main_v16 (ix3 (batch (grid0.coords t)) d n) := by
  obtain ⟨e0, e1, e2⟩ := idx1 t
  show V m c main_v16 (((cfg0.win 1).blk t).view.emb (ix3 0 d n)) = V m c main_v16 (ix3 (batch (grid0.coords t)) d n)
  refine congrArg (V m c main_v16) (funext fun a => Fin.ext ?_)
  match a with
  | ⟨0, _⟩ => show win0_1.index t (0 : Fin 3) * 1 + 1 * 0 = (grid0.coords t 0).val; omega
  | ⟨1, _⟩ => show win0_1.index t (1 : Fin 3) * 3 + 1 * d.val = d.val; omega
  | ⟨2, _⟩ => show win0_1.index t (2 : Fin 3) * 512 + 1 * n.val = n.val; omega

theorem blk2_eq (c : Dev nD) (t : Fin cfg0.N) : blk2 m c t = V m c main_arg3 := by
  funext y
  show V m c main_arg3 (((cfg0.win 2).blk t).view.emb y) = V m c main_arg3 y
  refine congrArg (V m c main_arg3) (funext fun a => Fin.ext ?_)
  match a with
  | ⟨0, _⟩ => show win0_2.index t (0 : Fin 1) * 128 + 1 * (y 0).val = (y 0).val; have e : win0_2.index t (0 : Fin 1) = 0 := rfl; omega

theorem blk3_eq (c : Dev nD) (t : Fin cfg0.N) : blk3 m c t = V m c main_arg4 := by
  funext y
  show V m c main_arg4 (((cfg0.win 3).blk t).view.emb y) = V m c main_arg4 y
  refine congrArg (V m c main_arg4) (funext fun a => Fin.ext ?_)
  match a with
  | ⟨0, _⟩ => show win0_3.index t (0 : Fin 1) * 128 + 1 * (y 0).val = (y 0).val; have e : win0_3.index t (0 : Fin 1) = 0 := rfl; omega

theorem blk4_eq (c : Dev nD) (t : Fin cfg0.N) : blk4 m c t = V m c main_v17 := by
  funext y
  show V m c main_v17 (((cfg0.win 4).blk t).view.emb y) = V m c main_v17 y
  refine congrArg (V m c main_v17) (funext fun a => Fin.ext ?_)
  match a with
  | ⟨0, _⟩ => show win0_4.index t (0 : Fin 2) * 128 + 1 * (y 0).val = (y 0).val; have e : win0_4.index t (0 : Fin 2) = 0 := rfl; omega
  | ⟨1, _⟩ => show win0_4.index t (1 : Fin 2) * 128 + 1 * (y 1).val = (y 1).val; have e : win0_4.index t (1 : Fin 2) = 0 := rfl; omega

theorem blk5_eq (c : Dev nD) (t : Fin cfg0.N) : blk5 m c t = V m c main_arg8 := by
  funext y
  show V m c main_arg8 (((cfg0.win 5).blk t).view.emb y) = V m c main_arg8 y
  refine congrArg (V m c main_arg8) (funext fun a => Fin.ext ?_)
  match a with
  | ⟨0, _⟩ => show win0_5.index t (0 : Fin 1) * 128 + 1 * (y 0).val = (y 0).val; have e : win0_5.index t (0 : Fin 1) = 0 := rfl; omega

theorem blk6_eq (c : Dev nD) (t : Fin cfg0.N) : blk6 m c t = V m c main_arg9 := by
  funext y
  show V m c main_arg9 (((cfg0.win 6).blk t).view.emb y) = V m c main_arg9 y
  refine congrArg (V m c main_arg9) (funext fun a => Fin.ext ?_)
  match a with
  | ⟨0, _⟩ => show win0_6.index t (0 : Fin 2) * 32 + 1 * (y 0).val = (y 0).val; have e : win0_6.index t (0 : Fin 2) = 0 := rfl; omega
  | ⟨1, _⟩ => show win0_6.index t (1 : Fin 2) * 128 + 1 * (y 1).val = (y 1).val; have e : win0_6.index t (1 : Fin 2) = 0 := rfl; omega

theorem blk7_eq (c : Dev nD) (t : Fin cfg0.N) : blk7 m c t = V m c main_arg10 := by
  funext y
  show V m c main_arg10 (((cfg0.win 7).blk t).view.emb y) = V m c main_arg10 y
  refine congrArg (V m c main_arg10) (funext fun a => Fin.ext ?_)
  match a with
  | ⟨0, _⟩ => show win0_7.index t (0 : Fin 1) * 32 + 1 * (y 0).val = (y 0).val; have e : win0_7.index t (0 : Fin 1) = 0 := rfl; omega

theorem blk8_eq (c : Dev nD) (t : Fin cfg0.N) : blk8 m c t = V m c main_v18 := by
  funext y
  show V m c main_v18 (((cfg0.win 8).blk t).view.emb y) = V m c main_v18 y
  refine congrArg (V m c main_v18) (funext fun a => Fin.ext ?_)
  match a with
  | ⟨0, _⟩ => show win0_8.index t (0 : Fin 2) * 128 + 1 * (y 0).val = (y 0).val; have e : win0_8.index t (0 : Fin 2) = 0 := rfl; omega
  | ⟨1, _⟩ => show win0_8.index t (1 : Fin 2) * 768 + 1 * (y 1).val = (y 1).val; have e : win0_8.index t (1 : Fin 2) = 0 := rfl; omega

theorem blk9_eq (c : Dev nD) (t : Fin cfg0.N) : blk9 m c t = V m c main_arg12 := by
  funext y
  show V m c main_arg12 (((cfg0.win 9).blk t).view.emb y) = V m c main_arg12 y
  refine congrArg (V m c main_arg12) (funext fun a => Fin.ext ?_)
  match a with
  | ⟨0, _⟩ => show win0_9.index t (0 : Fin 1) * 768 + 1 * (y 0).val = (y 0).val; have e : win0_9.index t (0 : Fin 1) = 0 := rfl; omega

theorem blk10_at (c : Dev nD) (t : Fin cfg0.N) (p q : Fin 128) :
    blk10 m c t (ix3 0 p q) = V m c main_v7 (ix3 (batch (grid0.coords t)) (Cert.Tile.node (rowTile (grid0.coords t)) p) (Cert.Tile.node (keyTile (grid0.coords t)) q)) := by
  obtain ⟨e0, e1, e2⟩ := idx10 t
  show V m c main_v7 (((cfg0.win 10).blk t).view.emb (ix3 0 p q)) = V m c main_v7 _
  refine congrArg (V m c main_v7) (funext fun a => Fin.ext ?_)
  match a with
  | ⟨0, _⟩ => show win0_10.index t (0 : Fin 3) * 1 + 1 * 0 = (grid0.coords t 0).val; omega
  | ⟨1, _⟩ => show win0_10.index t (1 : Fin 3) * 128 + 1 * p.val = (grid0.coords t 1).val * 128 + p.val; omega
  | ⟨2, _⟩ => show win0_10.index t (2 : Fin 3) * 128 + 1 * q.val = (grid0.coords t 2).val * 128 + q.val; omega

theorem blk11_at (c : Dev nD) (t : Fin cfg0.N) (p q : Fin 128) :
    blk11 m c t (ix3 0 p q) = V m c main_v15 (ix3 (batch (grid0.coords t)) (Cert.Tile.node (rowTile (grid0.coords t)) p) (Cert.Tile.node (keyTile (grid0.coords t)) q)) := by
  obtain ⟨e0, e1, e2⟩ := idx11 t
  show V m c main_v15 (((cfg0.win 11).blk t).view.emb (ix3 0 p q)) = V m c main_v15 _
  refine congrArg (V m c main_v15) (funext fun a => Fin.ext ?_)
  match a with
  | ⟨0, _⟩ => show win0_11.index t (0 : Fin 3) * 1 + 1 * 0 = (grid0.coords t 0).val; omega
  | ⟨1, _⟩ => show win0_11.index t (1 : Fin 3) * 128 + 1 * p.val = (grid0.coords t 1).val * 128 + p.val; omega
  | ⟨2, _⟩ => show win0_11.index t (2 : Fin 3) * 128 + 1 * q.val = (grid0.coords t 2).val * 128 + q.val; omega

end Cert.KernelIdeal.Val

end
-- ==== Proof.KV.Entry.lean ====
import proofs.«407687_j69655779606854_3_alg».proof.Proof.KI.Runs
import proofs.«407687_j69655779606854_3_alg».proof.Proof.EdgeTables
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

theorem V_v7 (c : Dev nD) :
    V m c main_v7 = Cert.Proof.Edge.edgeParam (m ((c : Thread nD τ).loc main_arg2)) (m ((c : Thread nD τ).loc main_arg5)) := by
  show StableHlo.after hostOps0 (fun b => m (c, b)) (Proc.devRef .tc main_v7) = _
  after_results
  rfl

theorem V_v15 (c : Dev nD) :
    V m c main_v15 = Cert.Proof.Edge.edgeParam (m ((c : Thread nD τ).loc main_arg2)) (m ((c : Thread nD τ).loc main_arg6)) := by
  show StableHlo.after hostOps0 (fun b => m (c, b)) (Proc.devRef .tc main_v15) = _
  after_results
  rfl

theorem V_v16_at (c : Dev nD) (b : Fin 2) (d : Fin 3) (n : Fin 512) :
    V m c main_v16 (ix3 b d n) = m ((c : Thread nD τ).loc main_arg0) (ix3 b n d) := by
  have e : (V m c main_v16 : S2x3x512.Idx → EReal)
      = transpose S2x3x512 [0, 2, 1] (m ((c : Thread nD τ).loc main_arg0)) transposes_S2x512x3_S2x3x512_0_2_1 := by
    show StableHlo.after hostOps0 (fun b => m (c, b)) (Proc.devRef .tc main_v16) = _
    after_results
  rw [e]
  exact transpose_apply [0, 2, 1] _ transposes_S2x512x3_S2x3x512_0_2_1 (ix3 b d n) (ix3 b n d)
    (fun a => match a with | ⟨0, _⟩ => rfl | ⟨1, _⟩ => rfl | ⟨2, _⟩ => rfl)

theorem V_v17_at (c : Dev nD) (k h : Fin 128) :
    V m c main_v17 (ix2 k h) = m ((c : Thread nD τ).loc main_arg7) (ix2 h k) := by
  have e : (V m c main_v17 : S128x128.Idx → EReal)
      = transpose S128x128 [1, 0] (m ((c : Thread nD τ).loc main_arg7)) transposes_S128x128_S128x128_1_0 := by
    show StableHlo.after hostOps0 (fun b => m (c, b)) (Proc.devRef .tc main_v17) = _
    after_results
  rw [e]
  exact transpose_apply [1, 0] _ transposes_S128x128_S128x128_1_0 (ix2 k h) (ix2 h k)
    (fun a => match a with | ⟨0, _⟩ => rfl | ⟨1, _⟩ => rfl)

theorem V_v18_at (c : Dev nD) (k : Fin 128) (e : Fin 768) :
    V m c main_v18 (ix2 k e) = m ((c : Thread nD τ).loc main_arg11) (ix2 e k) := by
  have e' : (V m c main_v18 : S128x768.Idx → EReal)
      = transpose S128x768 [1, 0] (m ((c : Thread nD τ).loc main_arg11)) transposes_S768x128_S128x768_1_0 := by
    show StableHlo.after hostOps0 (fun b => m (c, b)) (Proc.devRef .tc main_v18) = _
    after_results
  rw [e']
  exact transpose_apply [1, 0] _ transposes_S768x128_S128x768_1_0 (ix2 k e) (ix2 e k)
    (fun a => match a with | ⟨0, _⟩ => rfl | ⟨1, _⟩ => rfl)

end Cert.KernelIdeal.Val

end
-- ==== Proof.KV.Tiles.lean ====
import proofs.«407687_j69655779606854_3_alg».proof.Proof.KV.Args
import proofs.«407687_j69655779606854_3_alg».proof.Proof.KV.Blocks
import proofs.«407687_j69655779606854_3_alg».proof.Proof.KV.Entry

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

theorem posTile (c : Dev nD) (t : Fin cfg0.N) :
    Cert.Tile.PosTile (posA m c) (bT t) (IT t) (JT t) (ldRows (grid0.coords t) (blk0 m c t)) (ldKx (grid0.coords t) (blk1 m c t)) (ldKy (grid0.coords t) (blk1 m c t)) (ldKz (grid0.coords t) (blk1 m c t)) := by
  refine ⟨fun p d => ?_, fun q => ?_, fun q => ?_, fun q => ?_⟩
  · exact (ldRows_at (grid0.coords t) (blk0 m c t) p d).trans ((blk0_at m c t _ d).trans (congrFun (V_main_arg0 m c) _))
  · exact (ldKx_at (grid0.coords t) (blk1 m c t) q).trans ((blk1_at m c t 0 _).trans (V_v16_at m c _ 0 _))
  · exact (ldKy_at (grid0.coords t) (blk1 m c t) q).trans ((blk1_at m c t 1 _).trans (V_v16_at m c _ 1 _))
  · exact (ldKz_at (grid0.coords t) (blk1 m c t) q).trans ((blk1_at m c t 2 _).trans (V_v16_at m c _ 2 _))

theorem gammaTile (c : Dev nD) (t : Fin cfg0.N) : Cert.Tile.EdgeTile (gammaA m c) (bT t) (IT t) (JT t) (blk10 m c t) := by
  intro p q
  exact (blk10_at m c t p q).trans (congrFun (V_v7 m c) _)

theorem betaTile (c : Dev nD) (t : Fin cfg0.N) : Cert.Tile.EdgeTile (betaA m c) (bT t) (IT t) (JT t) (blk11 m c t) := by
  intro p q
  exact (blk11_at m c t p q).trans (congrFun (V_v15 m c) _)

theorem blk2_means (c : Dev nD) (t : Fin cfg0.N) : blk2 m c t = meansA m c := by
  exact (blk2_eq m c t).trans (V_main_arg3 m c)

theorem blk3_stds (c : Dev nD) (t : Fin cfg0.N) : blk3 m c t = stdsA m c := by
  exact (blk3_eq m c t).trans (V_main_arg4 m c)

theorem blk5_b1 (c : Dev nD) (t : Fin cfg0.N) : blk5 m c t = b1A m c := by
  exact (blk5_eq m c t).trans (V_main_arg8 m c)

theorem blk6_w2 (c : Dev nD) (t : Fin cfg0.N) : blk6 m c t = w2A m c := by
  exact (blk6_eq m c t).trans (V_main_arg9 m c)

theorem blk7_b2 (c : Dev nD) (t : Fin cfg0.N) : blk7 m c t = b2A m c := by
  exact (blk7_eq m c t).trans (V_main_arg10 m c)

theorem blk9_projB (c : Dev nD) (t : Fin cfg0.N) : blk9 m c t = projBA m c := by
  exact (blk9_eq m c t).trans (V_main_arg12 m c)

theorem blk4_w1t (c : Dev nD) (t : Fin cfg0.N) (k h : Fin 128) : blk4 m c t (ix2 k h) = w1A m c (ix2 h k) := by
  exact (congrFun (blk4_eq m c t) _).trans (V_v17_at m c k h)

theorem blk8_pwt (c : Dev nD) (t : Fin cfg0.N) (k : Fin 128) (e : Fin 768) : blk8 m c t (ix2 k e) = projWA m c (ix2 e k) := by
  exact (congrFun (blk8_eq m c t) _).trans (V_v18_at m c k e)

end Cert.KernelIdeal.Val

end
-- ==== Proof.PayNd.lean ====
import proofs.«407687_j69655779606854_3_alg».proof.Proof.Gen.KernelIdeal.Skeleton
import proofs.«407687_j69655779606854_3_alg».proof.Proof.Tile
import Idealize.ShloMosaic.Lib.ValueIdx
import Idealize.ShloMosaic.Lib.Pipeline.Value
import Idealize.ShloMosaic.Lib.ValueLayout
import Idealize.ShloMosaic.PureOps.Ideal.Laws

namespace Cert.Proof.Pay

open Idealize.ShloMosaic Idealize.ShloMosaic.ValueIdx Cert.KernelIdeal Cert.KernelIdeal.Gen

namespace Nd

theorem sliceCol_apply {α : Type} (o : Nat) (ho : o < 3) (x : S128x3.Idx → α) (h : S128x3.Slices ![0, o] S128x1)
    (p : Fin 128) (u : Fin 1) :
    extractStridedSlice S128x1 ![0, o] x h (ix2 p u) = x (ix2 p ⟨o, ho⟩) :=
  extractStridedSlice_apply _ x h _ _ fun a => match a with
    | ⟨0, _⟩ => by show p.val = 0 + p.val; omega
    | ⟨1, _⟩ => by show o = o + u.val; omega

theorem broadcastCol_apply {α : Type} (x : S128x1.Idx → α) (h : S128x1.Broadcasts S128x128) (p q : Fin 128) :
    broadcastTo S128x128 x h (ix2 p q) = x (ix2 p (0 : Fin 1)) :=
  broadcastTo_apply x h _ _ fun a => match a with
    | ⟨0, _⟩ => rfl
    | ⟨1, _⟩ => rfl

theorem shapeCast_11a_a_apply {α : Type} (x : S1x1x128.Idx → α) (h : S1x1x128.ShapeCasts S128) (q : Fin 128) :
    shapeCast S128 x h (ix1 q) = x (ix3 (0 : Fin 1) (0 : Fin 1) q) :=
  shapeCast_apply x h _ _ (by
    rw [Shape.rowMajor_val_three, Shape.rowMajor_val_one]
    show (0 * 1 + 0) * 128 + q.val = q.val
    omega)

theorem keyRow_apply (r : Vec Ideal S1x1x128 .f32) (p q : Fin 128) :
    broadcastTo S128x128 (shapeCast S1x128 (shapeCast S128 r shapeCasts_S1x1x128_S128) shapeCasts_S128_S1x128)
      broadcasts_S1x128_S128x128 (ix2 p q) = r (ix3 0 0 q) :=
  (broadcastTo_1b_ab_apply _ _ p q).trans
    ((shapeCast_a_1a_apply _ _ 0 q).trans (shapeCast_11a_a_apply r _ q))

theorem pay2_at (v5 : Vec Ideal S1x128x3 .f32) (p : Fin 128) (d : Fin 3) :
    k0_pay2 (F := Ideal) v5 (ix2 p d) = v5 (ix3 0 p d) :=
  shapeCast_1ab_ab_apply v5 _ p d

theorem queryCol_apply (v5 : Vec Ideal S1x128x3 .f32) (o : Nat) (ho : o < 3) (h : S128x3.Slices ![0, o] S128x1) (p q : Fin 128) :
    broadcastTo S128x128 (extractStridedSlice S128x1 ![0, o] (k0_pay2 (F := Ideal) v5) h) broadcasts_S128x1_S128x128 (ix2 p q)
      = v5 (ix3 0 p ⟨o, ho⟩) :=
  (broadcastCol_apply _ _ p q).trans ((sliceCol_apply o ho _ h p 0).trans (pay2_at v5 p ⟨o, ho⟩))

theorem sqrt_apply {s : Shape} {φ : FTy} (a : FVec Ideal s φ) (i : s.Idx) : sqrt a i = Ideal.sqrt (a i) := rfl

end Nd

open Nd

theorem pay3_at (v5 : Vec Ideal S1x128x3 .f32) (v11 : Vec Ideal S1x1x128 .f32) (p q : Fin 128) :
    k0_pay3 (F := Ideal) v5 v11 (ix2 p q) = Cert.Tile.delta v5 v11 0 p q := by
  unfold k0_pay3 Cert.Tile.delta
  refine (subf_apply _ _ _).trans ?_
  exact congrArg₂ (· - ·) (keyRow_apply v11 p q) (queryCol_apply v5 0 (by omega) _ p q)

theorem pay4_at (v5 : Vec Ideal S1x128x3 .f32) (v14 : Vec Ideal S1x1x128 .f32) (p q : Fin 128) :
    k0_pay4 (F := Ideal) v5 v14 (ix2 p q) = Cert.Tile.delta v5 v14 1 p q := by
  unfold k0_pay4 Cert.Tile.delta
  refine (subf_apply _ _ _).trans ?_
  exact congrArg₂ (· - ·) (keyRow_apply v14 p q) (queryCol_apply v5 1 (by omega) _ p q)

theorem pay5_at (v5 : Vec Ideal S1x128x3 .f32) (v17 : Vec Ideal S1x1x128 .f32) (p q : Fin 128) :
    k0_pay5 (F := Ideal) v5 v17 (ix2 p q) = Cert.Tile.delta v5 v17 2 p q := by
  unfold k0_pay5 Cert.Tile.delta
  refine (subf_apply _ _ _).trans ?_
  exact congrArg₂ (· - ·) (keyRow_apply v17 p q) (queryCol_apply v5 2 (by omega) _ p q)

theorem pay6_at (v5 : Vec Ideal S1x128x3 .f32) (v11 v14 v17 : Vec Ideal S1x1x128 .f32) (p q : Fin 128) :
    k0_pay6 (F := Ideal) v5 v11 v14 v17 (ix2 p q) = Cert.Tile.dist v5 v11 v14 v17 p q := by
  unfold k0_pay6 Cert.Tile.dist
  refine (sqrt_apply _ _).trans (congrArg Ideal.sqrt ?_)
  refine (addf_apply _ _ _).trans (congrArg₂ (· + ·) ?_ ?_)
  · refine (addf_apply _ _ _).trans (congrArg₂ (· + ·) ?_ ?_)
    · exact (mulf_apply _ _ _).trans (congrArg₂ (· * ·) (pay3_at v5 v11 p q) (pay3_at v5 v11 p q))
    · exact (mulf_apply _ _ _).trans (congrArg₂ (· * ·) (pay4_at v5 v14 p q) (pay4_at v5 v14 p q))
  · exact (mulf_apply _ _ _).trans (congrArg₂ (· * ·) (pay5_at v5 v17 p q) (pay5_at v5 v17 p q))

theorem pay7_at (v5 : Vec Ideal S1x128x3 .f32) (v11 v14 v17 : Vec Ideal S1x1x128 .f32) (p q : Fin 128) :
    k0_pay7 (F := Ideal) v5 v11 v14 v17 (ix2 p q) = Cert.Tile.invDist v5 v11 v14 v17 p q := by
  unfold k0_pay7 Cert.Tile.invDist
  refine (divf_apply _ _ _).trans ?_
  refine congrArg₂ Ideal.div rfl ?_
  refine (addf_apply _ _ _).trans ?_
  exact congrArg₂ (· + ·) (pay6_at v5 v11 v14 v17 p q) rfl

theorem pay9_at (v5 : Vec Ideal S1x128x3 .f32) (v11 v14 v17 : Vec Ideal S1x1x128 .f32) (p q : Fin 128) :
    k0_pay9 (F := Ideal) (k0_pay8 v5 v11 v14 v17) (ix3 0 p q)
      = Cert.Tile.delta v5 v11 0 p q * Cert.Tile.invDist v5 v11 v14 v17 p q := by
  unfold k0_pay9 k0_pay8
  refine (shapeCast_ab_1ab_apply _ _ 0 p q).trans ?_
  refine (mulf_apply _ _ _).trans ?_
  exact congrArg₂ (· * ·) (pay3_at v5 v11 p q) (pay7_at v5 v11 v14 v17 p q)

theorem pay10_at (v5 : Vec Ideal S1x128x3 .f32) (v11 v14 v17 : Vec Ideal S1x1x128 .f32) (p q : Fin 128) :
    k0_pay10 (F := Ideal) (k0_pay4 v5 v14) (k0_pay7 v5 v11 v14 v17) (ix3 0 p q)
      = Cert.Tile.delta v5 v14 1 p q * Cert.Tile.invDist v5 v11 v14 v17 p q := by
  unfold k0_pay10
  refine (shapeCast_ab_1ab_apply _ _ 0 p q).trans ?_
  refine (mulf_apply _ _ _).trans ?_
  exact congrArg₂ (· * ·) (pay4_at v5 v14 p q) (pay7_at v5 v11 v14 v17 p q)

theorem pay11_at (v5 : Vec Ideal S1x128x3 .f32) (v11 v14 v17 : Vec Ideal S1x1x128 .f32) (p q : Fin 128) :
    k0_pay11 (F := Ideal) (k0_pay5 v5 v17) (k0_pay7 v5 v11 v14 v17) (ix3 0 p q)
      = Cert.Tile.delta v5 v17 2 p q * Cert.Tile.invDist v5 v11 v14 v17 p q := by
  unfold k0_pay11
  refine (shapeCast_ab_1ab_apply _ _ 0 p q).trans ?_
  refine (mulf_apply _ _ _).trans ?_
  exact congrArg₂ (· * ·) (pay5_at v5 v17 p q) (pay7_at v5 v11 v14 v17 p q)

end Cert.Proof.Pay
-- ==== Proof.PayPsi.lean ====
import proofs.«407687_j69655779606854_3_alg».proof.Proof.Gen.KernelIdeal.Skeleton
import proofs.«407687_j69655779606854_3_alg».proof.Proof.Tile
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.Proof.Pay

open Idealize.ShloMosaic Idealize.ShloMosaic.ValueIdx Cert.KernelIdeal Cert.KernelIdeal.Gen

namespace Psi

section Layout
variable {α : Type}

theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add])

theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

theorem lane_apply {a b c : ℕ} (x : (⟨1, ![c]⟩ : Shape).Idx → α) (h₁ : (⟨1, ![c]⟩ : Shape).ShapeCasts ⟨3, ![1, 1, c]⟩)
    (h₂ : (⟨3, ![1, 1, c]⟩ : Shape).Broadcasts ⟨3, ![a, b, c]⟩) (p : Fin a) (q : Fin b) (k : Fin c) :
    broadcastTo ⟨3, ![a, b, c]⟩ (shapeCast ⟨3, ![1, 1, c]⟩ x h₁) h₂ (ix3 p q k) = x (ix1 k) :=
  (broadcastTo_11c_abc_apply _ h₂ p q k).trans (shapeCast_c_11c_apply x h₁ 0 0 k)

theorem entry_apply {a b c : ℕ} (x : (⟨2, ![a, b]⟩ : Shape).Idx → α) (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (k : Fin c) :
    broadcastTo ⟨3, ![a, b, c]⟩ (shapeCast ⟨3, ![a, b, 1]⟩ x h₁) h₂ (ix3 p q k) = x (ix2 p q) :=
  (broadcastTo_ab1_abc_apply _ h₂ p q k).trans (shapeCast_ab_ab1_apply x h₁ p q 0)

end Layout

end Psi

theorem inv_root_two_pi : Named.named (F := Ideal) Cert.KernelIdeal.κ "inv_sqrt_2pi_word" (φ := .f32) 0x3ECC422A#32 = Cert.Spec.invRootTwoPi :=
  IdealRules.named_const.ideal_named_scalar _ _ _ _ rfl

theorem pay12_at (v59 : Vec Ideal S128 .f32) (k : Fin 128) : k0_pay12 (F := Ideal) v59 (ix1 k) = Cert.Tile.invSigma v59 k := rfl

theorem pay13_at (v59 : Vec Ideal S128 .f32) (k : Fin 128) : k0_pay13 (F := Ideal) v59 (ix1 k) = Cert.Tile.invSigma v59 k * Cert.Spec.invRootTwoPi := by
  show k0_pay12 (F := Ideal) v59 (ix1 k) * Named.named (F := Ideal) Cert.KernelIdeal.κ "inv_sqrt_2pi_word" (φ := .f32) 0x3ECC422A#32 = _
  rw [pay12_at, inv_root_two_pi]

namespace Psi

theorem exp_stage_at (t : FVec Ideal S128x128 .f32) (m w : FVec Ideal S128 .f32)
    (h₁ : S128x128.ShapeCasts S128x128x1) (h₂ : S128x128x1.Broadcasts S128x128x128)
    (h₃ : S128.ShapeCasts S1x1x128) (h₄ : S1x1x128.Broadcasts S128x128x128) (p q k : Fin 128) :
    exp (mulf
        (mulf (subf (broadcastTo S128x128x128 (shapeCast S128x128x1 t h₁) h₂) (broadcastTo S128x128x128 (shapeCast S1x1x128 m h₃) h₄))
          (subf (broadcastTo S128x128x128 (shapeCast S128x128x1 t h₁) h₂) (broadcastTo S128x128x128 (shapeCast S1x1x128 m h₃) h₄)))
        (broadcastTo S128x128x128 (shapeCast S1x1x128 w h₃) h₄)) (ix3 p q k)
      = Ideal.exp ((t (ix2 p q) - m (ix1 k)) * (t (ix2 p q) - m (ix1 k)) * w (ix1 k)) := by
  show Ideal.exp ((broadcastTo S128x128x128 (shapeCast S128x128x1 t h₁) h₂ (ix3 p q k) - broadcastTo S128x128x128 (shapeCast S1x1x128 m h₃) h₄ (ix3 p q k))
      * (broadcastTo S128x128x128 (shapeCast S128x128x1 t h₁) h₂ (ix3 p q k) - broadcastTo S128x128x128 (shapeCast S1x1x128 m h₃) h₄ (ix3 p q k))
      * broadcastTo S128x128x128 (shapeCast S1x1x128 w h₃) h₄ (ix3 p q k)) = _
  rw [entry_apply t h₁ h₂ p q k, lane_apply m h₃ h₄ p q k, lane_apply w h₃ h₄ p q k]

end Psi

open Psi

theorem pay14_at (v36 : FVec Ideal S128x128 .f32) (v53 v55 : Vec Ideal S1x128x128 .f32) (v59 v63 : Vec Ideal S128 .f32) (p q k : Fin 128) :
    k0_pay14 (F := Ideal) v36 v53 v55 v59 v63 (ix3 p q k)
      = Ideal.exp ((v53 (ix3 0 p q) * v36 (ix2 p q) + v55 (ix3 0 p q) - v63 (ix1 k)) * (v53 (ix3 0 p q) * v36 (ix2 p q) + v55 (ix3 0 p q) - v63 (ix1 k))
          * (Cert.Spec.negHalf * Cert.Tile.invSigma v59 k * Cert.Tile.invSigma v59 k)) := by
  unfold k0_pay14
  refine (exp_stage_at _ v63 _ _ _ _ _ p q k).trans ?_
  show Ideal.exp ((shapeCast S128x128 v53 _ (ix2 p q) * v36 (ix2 p q) + shapeCast S128x128 v55 _ (ix2 p q) - v63 (ix1 k))
      * (shapeCast S128x128 v53 _ (ix2 p q) * v36 (ix2 p q) + shapeCast S128x128 v55 _ (ix2 p q) - v63 (ix1 k))
      * (Cert.Spec.negHalf * k0_pay12 (F := Ideal) v59 (ix1 k) * k0_pay12 (F := Ideal) v59 (ix1 k))) = _
  rw [shapeCast_1ab_ab_apply v53 _ p q, shapeCast_1ab_ab_apply v55 _ p q, pay12_at]

theorem pay15_at (v36 : FVec Ideal S128x128 .f32) (v53 v55 : Vec Ideal S1x128x128 .f32) (v59 v63 : Vec Ideal S128 .f32) (p q k : Fin 128) :
    k0_pay15 (F := Ideal) (k0_pay13 v59) (k0_pay14 v36 v53 v55 v59 v63) (ix3 p q k)
      = Cert.Tile.psi (fun p q => v36 (ix2 p q)) v53 v55 v63 v59 p q k := by
  unfold k0_pay15
  show k0_pay14 (F := Ideal) v36 v53 v55 v59 v63 (ix3 p q k)
      * broadcastTo S128x128x128 (shapeCast S1x1x128 (k0_pay13 (F := Ideal) v59) _) _ (ix3 p q k) = _
  rw [lane_apply (k0_pay13 (F := Ideal) v59) _ _ p q k, pay13_at, pay14_at]
  rfl

end Cert.Proof.Pay

end
-- ==== Proof.LibIdxSums.lean ====
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end Cert.IdxSums

end
-- ==== Proof.TileSpec.lean ====
import proofs.«407687_j69655779606854_3_alg».proof.Proof.Place
import proofs.«407687_j69655779606854_3_alg».proof.Proof.LibIdxSums
import Mathlib.Algebra.BigOperators.Fin

noncomputable section

namespace Cert.Tile

open Idealize.ShloMosaic Idealize.ShloMosaic.ValueIdx Cert.Spec
variable {pos : Arr SPos} {b : Fin 2} {I J : Fin 4} {rows : Arr SRows} {kx ky kz : Arr SKeyRow}

theorem delta_x (h : PosTile pos b I J rows kx ky kz) (p q : Fin 128) :
    delta rows kx 0 p q = Spec.delta pos b (node I p) (node J q) 0 := by
  unfold delta Spec.delta
  rw [h.kx, h.rows]

theorem delta_y (h : PosTile pos b I J rows kx ky kz) (p q : Fin 128) :
    delta rows ky 1 p q = Spec.delta pos b (node I p) (node J q) 1 := by
  unfold delta Spec.delta
  rw [h.ky, h.rows]

theorem delta_z (h : PosTile pos b I J rows kx ky kz) (p q : Fin 128) :
    delta rows kz 2 p q = Spec.delta pos b (node I p) (node J q) 2 := by
  unfold delta Spec.delta
  rw [h.kz, h.rows]

theorem dist_eq (h : PosTile pos b I J rows kx ky kz) (p q : Fin 128) :
    dist rows kx ky kz p q = Spec.dist pos b (node I p) (node J q) := by
  unfold dist Spec.dist
  rw [delta_x h, delta_y h, delta_z h]

theorem nd_x (h : PosTile pos b I J rows kx ky kz) (p q : Fin 128) :
    delta rows kx 0 p q * invDist rows kx ky kz p q = Spec.ndRecip pos b (node I p) (node J q) 0 := by
  unfold invDist Spec.ndRecip
  rw [delta_x h, dist_eq h]

theorem nd_y (h : PosTile pos b I J rows kx ky kz) (p q : Fin 128) :
    delta rows ky 1 p q * invDist rows kx ky kz p q = Spec.ndRecip pos b (node I p) (node J q) 1 := by
  unfold invDist Spec.ndRecip
  rw [delta_y h, dist_eq h]

theorem nd_z (h : PosTile pos b I J rows kx ky kz) (p q : Fin 128) :
    delta rows kz 2 p q * invDist rows kx ky kz p q = Spec.ndRecip pos b (node I p) (node J q) 2 := by
  unfold invDist Spec.ndRecip
  rw [delta_z h, dist_eq h]

theorem psi_eq (h : PosTile pos b I J rows kx ky kz) {gamma beta : Arr SEdge} {g bt : Arr STile}
    (hg : EdgeTile gamma b I J g) (hbt : EdgeTile beta b I J bt)
    (means stds : Arr SK) (p q k : Fin 128) :
    psi (dist rows kx ky kz) g bt means stds p q k
      = Spec.psiRecip pos gamma beta means stds b (node I p) (node J q) k := by
  unfold psi Spec.psiRecip Spec.tval invSigma Spec.sigma
  rw [hg p q, hbt p q, dist_eq h]

theorem attn_eq {ps : Fin 128 → Fin 128 → Fin 128 → EReal} {Ψ : Spec.Psi}
    (hps : ∀ p q k, ps p q k = Ψ b (node I p) (node J q) k)
    {w1t : Arr SW1t} {w1 : Arr SW1} (hw1 : ∀ k h : Fin 128, w1t (ix2 k h) = w1 (ix2 h k))
    (b1 : Arr SK) (w2 : Arr SW2) (b2 : Arr SH) (h : Fin 32) (p q : Fin 128) :
    attn ps w1t b1 w2 b2 h p q = Spec.attn Ψ w1 b1 w2 b2 (ix4 b h (node I p) (node J q)) := by
  have hh : ∀ k : Fin 128, hid ps w1t b1 p q k = Spec.hidden Ψ w1 b1 b (node I p) (node J q) k := by
    intro k
    unfold hid Spec.hidden
    refine congrArg (fun s => max (s + b1 (ix1 k)) 0) ?_
    exact Finset.sum_congr rfl fun k' _ => by rw [hps, hw1]
  unfold attn Spec.attn
  refine congrArg (· + b2 (ix1 h)) ?_
  exact Finset.sum_congr rfl fun k _ => by rw [hh k, mul_comm]

theorem pooled_split (Ψ : Spec.Psi) (b : Fin 2) (i : Fin 512) (k : Fin 128) :
    Spec.pooled Ψ b i k
      = ((((0 + ∑ q : Fin 128, Ψ b i (node 0 q) k) + ∑ q : Fin 128, Ψ b i (node 1 q) k)
          + ∑ q : Fin 128, Ψ b i (node 2 q) k) + ∑ q : Fin 128, Ψ b i (node 3 q) k) := by
  unfold Spec.pooled
  rw [zero_add]
  have hs := Cert.IdxSums.sum_fin_mul 4 128 (fun j : Fin (4 * 128) => Ψ b i j k)
  rw [Fin.sum_univ_four] at hs
  exact hs

theorem merged_eq {acc : Arr SAcc} {Ψ : Spec.Psi}
    (hacc : ∀ p k : Fin 128, acc (ix2 p k) = Spec.pooled Ψ b (node I p) k)
    {pwt : Arr SPWt} {projW : Arr SPW} (hpw : ∀ (k : Fin 128) (e : Fin 768), pwt (ix2 k e) = projW (ix2 e k))
    (projB : Arr SE) (p : Fin 128) (e : Fin 768) :
    merged acc pwt projB p e = Spec.merged Ψ projW projB (ix3 b (node I p) e) := by
  unfold merged Spec.merged
  refine congrArg (· + projB (ix1 e)) ?_
  exact Finset.sum_congr rfl fun k _ => by rw [hacc, hpw]

end Cert.Tile

end
-- ==== Proof.KV.ValPsi.lean ====
import proofs.«407687_j69655779606854_3_alg».proof.Proof.KV.Tiles
import proofs.«407687_j69655779606854_3_alg».proof.Proof.PayNd
import proofs.«407687_j69655779606854_3_alg».proof.Proof.PayPsi
import proofs.«407687_j69655779606854_3_alg».proof.Proof.TileSpec

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

theorem psi_at (c : Dev nD) (t : Fin cfg0.N) (p q k : Fin 128) :
    k0_pay15 (F := Ideal) (k0_pay13 (blk3 m c t)) (k0_pay14 (k0_pay6 (ldRows (grid0.coords t) (blk0 m c t)) (ldKx (grid0.coords t) (blk1 m c t)) (ldKy (grid0.coords t) (blk1 m c t)) (ldKz (grid0.coords t) (blk1 m c t))) (blk10 m c t) (blk11 m c t) (blk3 m c t) (blk2 m c t)) (ix3 p q k)
      = PsiA m c (bT t) (Cert.Tile.node (IT t) p) (Cert.Tile.node (JT t) q) k := by
  have hd : (fun p q : Fin 128 => k0_pay6 (F := Ideal) (ldRows (grid0.coords t) (blk0 m c t)) (ldKx (grid0.coords t) (blk1 m c t))
        (ldKy (grid0.coords t) (blk1 m c t)) (ldKz (grid0.coords t) (blk1 m c t)) (ix2 p q))
      = Cert.Tile.dist (ldRows (grid0.coords t) (blk0 m c t)) (ldKx (grid0.coords t) (blk1 m c t))
        (ldKy (grid0.coords t) (blk1 m c t)) (ldKz (grid0.coords t) (blk1 m c t)) := by
    funext p q
    exact Cert.Proof.Pay.pay6_at (ldRows (grid0.coords t) (blk0 m c t)) (ldKx (grid0.coords t) (blk1 m c t))
      (ldKy (grid0.coords t) (blk1 m c t)) (ldKz (grid0.coords t) (blk1 m c t)) p q
  refine (Cert.Proof.Pay.pay15_at (k0_pay6 (F := Ideal) (ldRows (grid0.coords t) (blk0 m c t)) (ldKx (grid0.coords t) (blk1 m c t))
      (ldKy (grid0.coords t) (blk1 m c t)) (ldKz (grid0.coords t) (blk1 m c t)))
    (blk10 m c t) (blk11 m c t) (blk3 m c t) (blk2 m c t) p q k).trans ?_
  rw [hd, blk2_means m c t, blk3_stds m c t]
  exact Cert.Tile.psi_eq (posTile m c t) (gammaTile m c t) (betaTile m c t) (meansA m c) (stdsA m c) p q k

end Cert.KernelIdeal.Val

end
-- ==== Proof.KI.RunA.lean ====
import proofs.«407687_j69655779606854_3_alg».proof.Proof.KI.Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S32x128 .f32) (harg9 : arg9.IsWhole) (arg10 : Memref sig .tc .vmem S32 .f32) (harg10 : arg10.IsWhole) (arg11 : Memref sig .tc .vmem S128x768 .f32) (harg11 : arg11.IsWhole) (arg12 : Memref sig .tc .vmem S768 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x32x128x128 .f32) (harg15 : arg15.IsWhole) (arg16 : Memref sig .tc .vmem S1x128x768 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S128x128 .f32) (harg20 : arg20.IsWhole) (hc0 : cond0_0 i) (hc1 : ¬cond0_1 i)
    (x0 : Vec F S1x512x3 .f32) (x1 : Vec F S1x3x512 .f32) (x2 : Vec F S128 .f32) (x3 : Vec F S128 .f32) (x4 : Vec F S128x128 .f32) (x5 : Vec F S128 .f32) (x6 : Vec F S32x128 .f32) (x7 : Vec F S32 .f32) (x8 : Vec F S128x768 .f32) (x9 : Vec F S768 .f32) (x10 : Vec F S1x128x128 .f32) (x11 : Vec F S1x128x128 .f32) :
    Σ' (L12 : List (View.Piece (Elt F) S1x32x128x128 .f32)) (L14 : List (View.Piece (Elt F) S1x128x128 .f32)) (L15 : List (View.Piece (Elt F) S1x128x128 .f32)) (L16 : List (View.Piece (Elt F) S1x128x128 .f32)), { LS0 : List (View.Piece (Elt F) S128x128 .f32) //
      ∀ (xi13 : Vec F S1x128x768 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare x10
            ∗ owns (c : Thread nD τ) arg14 fullShare x11
            ∗ (∃ d, owns (c : Thread nD τ) arg15 fullShare d)
            ∗ owns (c : Thread nD τ) arg16 fullShare xi13
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (iprop(owns (c : Thread nD τ) arg3 fullShare x0
              ∗ owns (c : Thread nD τ) arg4 fullShare x1
              ∗ owns (c : Thread nD τ) arg5 fullShare x2
              ∗ owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg10 fullShare x7
              ∗ owns (c : Thread nD τ) arg11 fullShare x8
              ∗ owns (c : Thread nD τ) arg12 fullShare x9
              ∗ owns (c : Thread nD τ) arg13 fullShare x10
              ∗ owns (c : Thread nD τ) arg14 fullShare x11
              ∗ (∃ f, arg15.view.loc (c : Thread nD τ) ↦[arg15.view.set]{fullShare} arg15.view.writes (Elt F) f L12)
              ∗ owns (c : Thread nD τ) arg16 fullShare xi13
              ∗ (∃ f, arg17.view.loc (c : Thread nD τ) ↦[arg17.view.set]{fullShare} arg17.view.writes (Elt F) f L14)
              ∗ (∃ f, arg18.view.loc (c : Thread nD τ) ↦[arg18.view.set]{fullShare} arg18.view.writes (Elt F) f L15)
              ∗ (∃ f, arg19.view.loc (c : Thread nD τ) ↦[arg19.view.set]{fullShare} arg19.view.writes (Elt F) f L16)
              ∗ (∃ f, arg20.view.loc (c : Thread nD τ) ↦[arg20.view.set]{fullShare} arg20.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun xi13 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%d15, %f15, -, H15⟩, ⟨%d16, %f16, -, H16⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg16.eq_unread hf13
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]; · iexists _; iexact H12
    isplitl [H13]
    · iexists _; isplitr; · ipureintro; exact harg16.read_unread _
      iexact H13
    isplitl [H14]; · iexists _; iexact H14
    isplitl [H15]; · iexists _; iexact H15
    isplitl [H16]; · iexists _; iexact H16
    iexists _; iexact HS0

end Cert.KernelIdeal.Frame

end
-- ==== Proof.KI.RunB.lean ====
import proofs.«407687_j69655779606854_3_alg».proof.Proof.KI.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S32x128 .f32) (harg9 : arg9.IsWhole) (arg10 : Memref sig .tc .vmem S32 .f32) (harg10 : arg10.IsWhole) (arg11 : Memref sig .tc .vmem S128x768 .f32) (harg11 : arg11.IsWhole) (arg12 : Memref sig .tc .vmem S768 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x32x128x128 .f32) (harg15 : arg15.IsWhole) (arg16 : Memref sig .tc .vmem S1x128x768 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S128x128 .f32) (harg20 : arg20.IsWhole) (hc0 : ¬cond0_0 i) (hc1 : ¬cond0_1 i)
    (x0 : Vec F S1x512x3 .f32) (x1 : Vec F S1x3x512 .f32) (x2 : Vec F S128 .f32) (x3 : Vec F S128 .f32) (x4 : Vec F S128x128 .f32) (x5 : Vec F S128 .f32) (x6 : Vec F S32x128 .f32) (x7 : Vec F S32 .f32) (x8 : Vec F S128x768 .f32) (x9 : Vec F S768 .f32) (x10 : Vec F S1x128x128 .f32) (x11 : Vec F S1x128x128 .f32) (xs0 : Vec F S128x128 .f32) :
    Σ' (L12 : List (View.Piece (Elt F) S1x32x128x128 .f32)) (L14 : List (View.Piece (Elt F) S1x128x128 .f32)) (L15 : List (View.Piece (Elt F) S1x128x128 .f32)) (L16 : List (View.Piece (Elt F) S1x128x128 .f32)), { LS0 : List (View.Piece (Elt F) S128x128 .f32) //
      ∀ (xi13 : Vec F S1x128x768 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare x10
            ∗ owns (c : Thread nD τ) arg14 fullShare x11
            ∗ (∃ d, owns (c : Thread nD τ) arg15 fullShare d)
            ∗ owns (c : Thread nD τ) arg16 fullShare xi13
            ∗ (∃ d, owns (c : Thread nD τ) arg17 fullShare d)
            ∗ (∃ d, owns (c : Thread nD τ) arg18 fullShare d)
            ∗ (∃ d, owns (c : Thread nD τ) arg19 fullShare d)
            ∗ owns (c : Thread nD τ) arg20 fullShare xs0
            ∗ (iprop(owns (c : Thread nD τ) arg3 fullShare x0
              ∗ owns (c : Thread nD τ) arg4 fullShare x1
              ∗ owns (c : Thread nD τ) arg5 fullShare x2
              ∗ owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg10 fullShare x7
              ∗ owns (c : Thread nD τ) arg11 fullShare x8
              ∗ owns (c : Thread nD τ) arg12 fullShare x9
              ∗ owns (c : Thread nD τ) arg13 fullShare x10
              ∗ owns (c : Thread nD τ) arg14 fullShare x11
              ∗ (∃ f, arg15.view.loc (c : Thread nD τ) ↦[arg15.view.set]{fullShare} arg15.view.writes (Elt F) f L12)
              ∗ owns (c : Thread nD τ) arg16 fullShare xi13
              ∗ (∃ f, arg17.view.loc (c : Thread nD τ) ↦[arg17.view.set]{fullShare} arg17.view.writes (Elt F) f L14)
              ∗ (∃ f, arg18.view.loc (c : Thread nD τ) ↦[arg18.view.set]{fullShare} arg18.view.writes (Elt F) f L15)
              ∗ (∃ f, arg19.view.loc (c : Thread nD τ) ↦[arg19.view.set]{fullShare} arg19.view.writes (Elt F) f L16)
              ∗ (∃ f, arg20.view.loc (c : Thread nD τ) ↦[arg20.view.set]{fullShare} arg20.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun xi13 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%d15, %f15, -, H15⟩, ⟨%d16, %f16, -, H16⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg16.eq_unread hf13; obtain rfl := harg20.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]; · iexists _; iexact H12
    isplitl [H13]
    · iexists _; isplitr; · ipureintro; exact harg16.read_unread _
      iexact H13
    isplitl [H14]; · iexists _; iexact H14
    isplitl [H15]; · iexists _; iexact H15
    isplitl [H16]; · iexists _; iexact H16
    iexists _; iexact HS0

end Cert.KernelIdeal.Frame

end
-- ==== Proof.KI.RunC.lean ====
import proofs.«407687_j69655779606854_3_alg».proof.Proof.KI.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_C (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S32x128 .f32) (harg9 : arg9.IsWhole) (arg10 : Memref sig .tc .vmem S32 .f32) (harg10 : arg10.IsWhole) (arg11 : Memref sig .tc .vmem S128x768 .f32) (harg11 : arg11.IsWhole) (arg12 : Memref sig .tc .vmem S768 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x32x128x128 .f32) (harg15 : arg15.IsWhole) (arg16 : Memref sig .tc .vmem S1x128x768 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S128x128 .f32) (harg20 : arg20.IsWhole) (hc0 : ¬cond0_0 i) (hc1 : cond0_1 i)
    (x0 : Vec F S1x512x3 .f32) (x1 : Vec F S1x3x512 .f32) (x2 : Vec F S128 .f32) (x3 : Vec F S128 .f32) (x4 : Vec F S128x128 .f32) (x5 : Vec F S128 .f32) (x6 : Vec F S32x128 .f32) (x7 : Vec F S32 .f32) (x8 : Vec F S128x768 .f32) (x9 : Vec F S768 .f32) (x10 : Vec F S1x128x128 .f32) (x11 : Vec F S1x128x128 .f32) (xs0 : Vec F S128x128 .f32) :
    Σ' (L12 : List (View.Piece (Elt F) S1x32x128x128 .f32)) (L13 : List (View.Piece (Elt F) S1x128x768 .f32)) (L14 : List (View.Piece (Elt F) S1x128x128 .f32)) (L15 : List (View.Piece (Elt F) S1x128x128 .f32)) (L16 : List (View.Piece (Elt F) S1x128x128 .f32)), { LS0 : List (View.Piece (Elt F) S128x128 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare x10
            ∗ owns (c : Thread nD τ) arg14 fullShare x11
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ owns (c : Thread nD τ) arg20 fullShare xs0
            ∗ (iprop(owns (c : Thread nD τ) arg3 fullShare x0
              ∗ owns (c : Thread nD τ) arg4 fullShare x1
              ∗ owns (c : Thread nD τ) arg5 fullShare x2
              ∗ owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg10 fullShare x7
              ∗ owns (c : Thread nD τ) arg11 fullShare x8
              ∗ owns (c : Thread nD τ) arg12 fullShare x9
              ∗ owns (c : Thread nD τ) arg13 fullShare x10
              ∗ owns (c : Thread nD τ) arg14 fullShare x11
              ∗ (∃ f, arg15.view.loc (c : Thread nD τ) ↦[arg15.view.set]{fullShare} arg15.view.writes (Elt F) f L12)
              ∗ (∃ f, arg16.view.loc (c : Thread nD τ) ↦[arg16.view.set]{fullShare} arg16.view.writes (Elt F) f L13)
              ∗ (∃ f, arg17.view.loc (c : Thread nD τ) ↦[arg17.view.set]{fullShare} arg17.view.writes (Elt F) f L14)
              ∗ (∃ f, arg18.view.loc (c : Thread nD τ) ↦[arg18.view.set]{fullShare} arg18.view.writes (Elt F) f L15)
              ∗ (∃ f, arg19.view.loc (c : Thread nD τ) ↦[arg19.view.set]{fullShare} arg19.view.writes (Elt F) f L16)
              ∗ (∃ f, arg20.view.loc (c : Thread nD τ) ↦[arg20.view.set]{fullShare} arg20.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg20.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact HS0

end Cert.KernelIdeal.Frame

end
-- ==== Proof.KI.Frame.lean ====
import proofs.«407687_j69655779606854_3_alg».proof.Proof.KI.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def out0_idle_13 : Vec F S1x128x768 .f32 := VO0_13.read (Elt F) (VO0_13.writes (Elt F) VO0_13.junk [])

section
variable (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S32x128 .f32) (harg9 : arg9.IsWhole) (arg10 : Memref sig .tc .vmem S32 .f32) (harg10 : arg10.IsWhole) (arg11 : Memref sig .tc .vmem S128x768 .f32) (harg11 : arg11.IsWhole) (arg12 : Memref sig .tc .vmem S768 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x32x128x128 .f32) (harg15 : arg15.IsWhole) (arg16 : Memref sig .tc .vmem S1x128x768 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S128x128 .f32) (harg20 : arg20.IsWhole) (hc0 : cond0_0 i) (hc1 : ¬cond0_1 i)
  (x0 : Vec F S1x512x3 .f32) (x1 : Vec F S1x3x512 .f32) (x2 : Vec F S128 .f32) (x3 : Vec F S128 .f32) (x4 : Vec F S128x128 .f32) (x5 : Vec F S128 .f32) (x6 : Vec F S32x128 .f32) (x7 : Vec F S32 .f32) (x8 : Vec F S128x768 .f32) (x9 : Vec F S768 .f32) (x10 : Vec F S1x128x128 .f32) (x11 : Vec F S1x128x128 .f32)

theorem cover0_A_12 (y : S1x32x128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).1 S1x32x128x128.size (by sl_kernel_rfl) y

def out0_A_12 : Vec F S1x32x128x128 .f32 :=
  VO0_12.read (Elt F) (VO0_12.writes (Elt F) VO0_12.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).1)

theorem cover0_A_14 (y : S1x128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.1 S1x128x128.size (by sl_kernel_rfl) y

def out0_A_14 : Vec F S1x128x128 .f32 :=
  VO0_14.read (Elt F) (VO0_14.writes (Elt F) VO0_14.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.1)

theorem cover0_A_15 (y : S1x128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.1 S1x128x128.size (by sl_kernel_rfl) y

def out0_A_15 : Vec F S1x128x128 .f32 :=
  VO0_15.read (Elt F) (VO0_15.writes (Elt F) VO0_15.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.1)

theorem cover0_A_16 (y : S1x128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.1 S1x128x128.size (by sl_kernel_rfl) y

def out0_A_16 : Vec F S1x128x128 .f32 :=
  VO0_16.read (Elt F) (VO0_16.writes (Elt F) VO0_16.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.1)

theorem scover0_A_0 (y : S128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.1 S128x128.size (by sl_kernel_rfl) y

def sout0_A_0 : Vec F S128x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.1)

end

section
variable (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S32x128 .f32) (harg9 : arg9.IsWhole) (arg10 : Memref sig .tc .vmem S32 .f32) (harg10 : arg10.IsWhole) (arg11 : Memref sig .tc .vmem S128x768 .f32) (harg11 : arg11.IsWhole) (arg12 : Memref sig .tc .vmem S768 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x32x128x128 .f32) (harg15 : arg15.IsWhole) (arg16 : Memref sig .tc .vmem S1x128x768 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S128x128 .f32) (harg20 : arg20.IsWhole) (hc0 : ¬cond0_0 i) (hc1 : ¬cond0_1 i)
  (x0 : Vec F S1x512x3 .f32) (x1 : Vec F S1x3x512 .f32) (x2 : Vec F S128 .f32) (x3 : Vec F S128 .f32) (x4 : Vec F S128x128 .f32) (x5 : Vec F S128 .f32) (x6 : Vec F S32x128 .f32) (x7 : Vec F S32 .f32) (x8 : Vec F S128x768 .f32) (x9 : Vec F S768 .f32) (x10 : Vec F S1x128x128 .f32) (x11 : Vec F S1x128x128 .f32) (xs0 : Vec F S128x128 .f32)

theorem cover0_B_12 (y : S1x32x128x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).1 S1x32x128x128.size (by sl_kernel_rfl) y

def out0_B_12 : Vec F S1x32x128x128 .f32 :=
  VO0_12.read (Elt F) (VO0_12.writes (Elt F) VO0_12.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).1)

theorem cover0_B_14 (y : S1x128x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.1 S1x128x128.size (by sl_kernel_rfl) y

def out0_B_14 : Vec F S1x128x128 .f32 :=
  VO0_14.read (Elt F) (VO0_14.writes (Elt F) VO0_14.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.1)

theorem cover0_B_15 (y : S1x128x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.1 S1x128x128.size (by sl_kernel_rfl) y

def out0_B_15 : Vec F S1x128x128 .f32 :=
  VO0_15.read (Elt F) (VO0_15.writes (Elt F) VO0_15.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.1)

theorem cover0_B_16 (y : S1x128x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.1 S1x128x128.size (by sl_kernel_rfl) y

def out0_B_16 : Vec F S1x128x128 .f32 :=
  VO0_16.read (Elt F) (VO0_16.writes (Elt F) VO0_16.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.1)

theorem scover0_B_0 (y : S128x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.2.1 S128x128.size (by sl_kernel_rfl) y

def sout0_B_0 : Vec F S128x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.2.1)

end

section
variable (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S32x128 .f32) (harg9 : arg9.IsWhole) (arg10 : Memref sig .tc .vmem S32 .f32) (harg10 : arg10.IsWhole) (arg11 : Memref sig .tc .vmem S128x768 .f32) (harg11 : arg11.IsWhole) (arg12 : Memref sig .tc .vmem S768 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x32x128x128 .f32) (harg15 : arg15.IsWhole) (arg16 : Memref sig .tc .vmem S1x128x768 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S128x128 .f32) (harg20 : arg20.IsWhole) (hc0 : ¬cond0_0 i) (hc1 : cond0_1 i)
  (x0 : Vec F S1x512x3 .f32) (x1 : Vec F S1x3x512 .f32) (x2 : Vec F S128 .f32) (x3 : Vec F S128 .f32) (x4 : Vec F S128x128 .f32) (x5 : Vec F S128 .f32) (x6 : Vec F S32x128 .f32) (x7 : Vec F S32 .f32) (x8 : Vec F S128x768 .f32) (x9 : Vec F S768 .f32) (x10 : Vec F S1x128x128 .f32) (x11 : Vec F S1x128x128 .f32) (xs0 : Vec F S128x128 .f32)

theorem cover0_C_12 (y : S1x32x128x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).1 S1x32x128x128.size (by sl_kernel_rfl) y

def out0_C_12 : Vec F S1x32x128x128 .f32 :=
  VO0_12.read (Elt F) (VO0_12.writes (Elt F) VO0_12.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).1)

theorem cover0_C_13 (y : S1x128x768.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.1 S1x128x768.size (by sl_kernel_rfl) y

def out0_C_13 : Vec F S1x128x768 .f32 :=
  VO0_13.read (Elt F) (VO0_13.writes (Elt F) VO0_13.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.1)

theorem cover0_C_14 (y : S1x128x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.1 S1x128x128.size (by sl_kernel_rfl) y

def out0_C_14 : Vec F S1x128x128 .f32 :=
  VO0_14.read (Elt F) (VO0_14.writes (Elt F) VO0_14.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.1)

theorem cover0_C_15 (y : S1x128x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.1 S1x128x128.size (by sl_kernel_rfl) y

def out0_C_15 : Vec F S1x128x128 .f32 :=
  VO0_15.read (Elt F) (VO0_15.writes (Elt F) VO0_15.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.1)

theorem cover0_C_16 (y : S1x128x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.2.1 S1x128x128.size (by sl_kernel_rfl) y

def out0_C_16 : Vec F S1x128x128 .f32 :=
  VO0_16.read (Elt F) (VO0_16.writes (Elt F) VO0_16.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.2.1)

theorem scover0_C_0 (y : S128x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.2.2.1 S128x128.size (by sl_kernel_rfl) y

def sout0_C_0 : Vec F S128x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0).2.2.2.2.2.1)

end

abbrev Outs (F : FTy → Type) [FloatOps F] : Type := Vec F S1x32x128x128 .f32 × Vec F S1x128x768 .f32 × Vec F S1x128x128 .f32 × Vec F S1x128x128 .f32 × Vec F S1x128x128 .f32 × Vec F S128x128 .f32

-- After a point at the first key tile: each output block and the running sum, as that case's stores leave them.
def outsA (c : Dev nD) (t : Fin cfg0.N) (h0 : t.val % 4 = 0) (h1 : ¬t.val % 4 = 3) : Outs F :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
      out0_idle_13,
      out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
      out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
      out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

def outsB (c : Dev nD) (t : Fin cfg0.N) (h0 : ¬t.val % 4 = 0) (h1 : ¬t.val % 4 = 3) (xs : Vec F S128x128 .f32) : Outs F :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs,
      out0_idle_13,
      out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs,
      out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs,
      out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs)

def outsC (c : Dev nD) (t : Fin cfg0.N) (h0 : ¬t.val % 4 = 0) (h1 : t.val % 4 = 3) (xs : Vec F S128x128 .f32) : Outs F :=
  (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs,
      out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs,
      out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs,
      out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs,
      out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs)

-- After point n, by the point's case; past the first key tile the running sum builds on what the point before left.
def outsAt0 (c : Dev nD) : (n : ℕ) → n < cfg0.N → Outs F
  | 0, hn => outsA m c ⟨0, hn⟩ (Nat.zero_mod _) (show ¬(0 % 4 = 3) by decide)
  | n + 1, hn =>
    if h0 : (n + 1) % 4 = 0 then
      if h1 : (n + 1) % 4 = 3 then False.elim (by omega) else outsA m c ⟨n + 1, hn⟩ h0 h1
    else if h1 : (n + 1) % 4 = 3 then outsC m c ⟨n + 1, hn⟩ h0 h1 (outsAt0 c n (Nat.lt_of_succ_lt hn)).2.2.2.2.2
    else outsB m c ⟨n + 1, hn⟩ h0 h1 (outsAt0 c n (Nat.lt_of_succ_lt hn)).2.2.2.2.2

theorem outsAt0_A (c : Dev nD) (t : Fin cfg0.N) (h0 : t.val % 4 = 0) (h1 : ¬t.val % 4 = 3) : outsAt0 m c t.val t.isLt = outsA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = outsB m c t h0 h1 (outsAt0 m c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = outsC m c t h0 h1 (outsAt0 m c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_pos h1).trans rfl)

-- The invariant between points: the running sum holds what the point before left.
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

theorem before0_2 (c : Dev nD) (t : Fin cfg0.N) (d) : (dats m 0 c).before 2 t d = iblk m c 2 t :=
  before0_2_of m (dats m 0 c) (A_eq m c 2) (after0_2 m c) t d

theorem before0_3 (c : Dev nD) (t : Fin cfg0.N) (d) : (dats m 0 c).before 3 t d = iblk m c 3 t :=
  before0_3_of m (dats m 0 c) (A_eq m c 3) (after0_3 m c) t d

theorem before0_4 (c : Dev nD) (t : Fin cfg0.N) (d) : (dats m 0 c).before 4 t d = iblk m c 4 t :=
  before0_4_of m (dats m 0 c) (A_eq m c 4) (after0_4 m c) t d

theorem before0_5 (c : Dev nD) (t : Fin cfg0.N) (d) : (dats m 0 c).before 5 t d = iblk m c 5 t :=
  before0_5_of m (dats m 0 c) (A_eq m c 5) (after0_5 m c) t d

theorem before0_6 (c : Dev nD) (t : Fin cfg0.N) (d) : (dats m 0 c).before 6 t d = iblk m c 6 t :=
  before0_6_of m (dats m 0 c) (A_eq m c 6) (after0_6 m c) t d

theorem before0_7 (c : Dev nD) (t : Fin cfg0.N) (d) : (dats m 0 c).before 7 t d = iblk m c 7 t :=
  before0_7_of m (dats m 0 c) (A_eq m c 7) (after0_7 m c) t d

theorem before0_8 (c : Dev nD) (t : Fin cfg0.N) (d) : (dats m 0 c).before 8 t d = iblk m c 8 t :=
  before0_8_of m (dats m 0 c) (A_eq m c 8) (after0_8 m c) t d

theorem before0_9 (c : Dev nD) (t : Fin cfg0.N) (d) : (dats m 0 c).before 9 t d = iblk m c 9 t :=
  before0_9_of m (dats m 0 c) (A_eq m c 9) (after0_9 m c) t d

theorem before0_10 (c : Dev nD) (t : Fin cfg0.N) (d) : (dats m 0 c).before 10 t d = iblk m c 10 t :=
  before0_10_of m (dats m 0 c) (A_eq m c 10) (after0_10 m c) t d

theorem before0_11 (c : Dev nD) (t : Fin cfg0.N) (d) : (dats m 0 c).before 11 t d = iblk m c 11 t :=
  before0_11_of m (dats m 0 c) (A_eq m c 11) (after0_11 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 16000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  by_cases h0 : t.val % 4 = 0
  · by_cases h1 : t.val % 4 = 3
    · exfalso; omega
    ·
      rw [Dat.leavesExact_idle (dats m 0 c) 13 t (idleAt0_13_A t ((hcond0_0 t).mpr h0) (fun h => h1 ((hcond0_1 t).mp h))) (noFlush0_13_A t ((hcond0_0 t).mpr h0) (fun h => h1 ((hcond0_1 t).mp h)))]
      rw [outsAt0_A m c t h0 h1]
      unfold outsA out0_A_12 out0_A_14 out0_A_15 out0_A_16 sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexact H13
        isplitl [H14]; · iexists _; iexact H14
        isplitl [H15]; · iexists _; iexact H15
        isplitl [H16]; · iexists _; iexact H16
        isplitl [HS0]; · iexact HS0
        iintro ⟨H0, H1, H2, H3, H4, H5, H6, H7, H8, H9, H10, H11, ⟨%e12, H12⟩, H13, ⟨%e14, H14⟩, ⟨%e15, H15⟩, ⟨%e16, H16⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _)
        isplitl [H13]; · iexists _; iexact H13
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _)
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexact H13
        isplitl [H14]; · iexists _; iexact H14
        isplitl [H15]; · iexists _; iexact H15
        isplitl [H16]; · iexists _; iexact H16
        isplitl [HS0]; · iexists _; iexact HS0
        iintro ⟨H0, H1, H2, H3, H4, H5, H6, H7, H8, H9, H10, H11, ⟨%e12, H12⟩, H13, ⟨%e14, H14⟩, ⟨%e15, H15⟩, ⟨%e16, H16⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _)
        isplitl [H13]; · iexists _; iexact H13
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _)
  · by_cases h1 : t.val % 4 = 3
    ·
      rw [show (dats m 0 c).leavesExact 13 t = owns (c : Thread nD τ) (ms0_13 t) fullShare ((dats m 0 c).after 13 t) from by
        unfold Dat.leavesExact; rw [liveAt0_13_C t (fun h => h0 ((hcond0_0 t).mp h)) ((hcond0_1 t).mpr h1)], after0_13]
      rw [outsAt0_C m c t h0 h1]
      unfold outsC out0_C_12 out0_C_13 out0_C_14 out0_C_15 out0_C_16 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_C c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _)
    ·
      rw [Dat.leavesExact_idle (dats m 0 c) 13 t (idleAt0_13_B t (fun h => h0 ((hcond0_0 t).mp h)) (fun h => h1 ((hcond0_1 t).mp h))) (noFlush0_13_B t (fun h => h0 ((hcond0_0 t).mp h)) (fun h => h1 ((hcond0_1 t).mp h)))]
      rw [outsAt0_B m c t h0 h1]
      unfold outsB out0_B_12 out0_B_14 out0_B_15 out0_B_16 sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      isplitl [H14]; · iexists _; iexact H14
      isplitl [H15]; · iexists _; iexact H15
      isplitl [H16]; · iexists _; iexact H16
      isplitl [HS0]; · iexact HS0
      iintro ⟨H0, H1, H2, H3, H4, H5, H6, H7, H8, H9, H10, H11, ⟨%e12, H12⟩, H13, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _)
      isplitl [H13]; · iexists _; iexact H13
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Frame

end
-- ==== Proof.KV.PiecesA.lean ====
import proofs.«407687_j69655779606854_3_alg».proof.Proof.KI.Frame
import proofs.«407687_j69655779606854_3_alg».proof.Proof.KV.Loads
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

open Idealize.ShloMosaic.Tactic

section
variable (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S32x128 .f32) (harg9 : arg9.IsWhole) (arg10 : Memref sig .tc .vmem S32 .f32) (harg10 : arg10.IsWhole) (arg11 : Memref sig .tc .vmem S128x768 .f32) (harg11 : arg11.IsWhole) (arg12 : Memref sig .tc .vmem S768 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x32x128x128 .f32) (harg15 : arg15.IsWhole) (arg16 : Memref sig .tc .vmem S1x128x768 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S128x128 .f32) (harg20 : arg20.IsWhole) (hc0 : cond0_0 i) (hc1 : ¬cond0_1 i)
  (x0 : Vec Ideal S1x512x3 .f32) (x1 : Vec Ideal S1x3x512 .f32) (x2 : Vec Ideal S128 .f32) (x3 : Vec Ideal S128 .f32) (x4 : Vec Ideal S128x128 .f32) (x5 : Vec Ideal S128 .f32) (x6 : Vec Ideal S32x128 .f32) (x7 : Vec Ideal S32 .f32) (x8 : Vec Ideal S128x768 .f32) (x9 : Vec Ideal S768 .f32) (x10 : Vec Ideal S1x128x128 .f32) (x11 : Vec Ideal S1x128x128 .f32)

theorem out_A_14 :
    out0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = k0_pay9 (k0_pay8 (ldRows i x0) (ldKx i x1) (ldKy i x1) (ldKz i x1)) := by
  unfold out0_A_14
  rw [View.read_writes_eq_canon _ _ _ (cover0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  sl_unfold_words
  rw [View.canon_unit_zero hz3]
  simp only [View.readAt_eq_ld, harg3.read_unread, harg4.read_unread]
  rfl

theorem out_A_15 :
    out0_A_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = k0_pay10 (k0_pay4 (ldRows i x0) (ldKy i x1)) (k0_pay7 (ldRows i x0) (ldKx i x1) (ldKy i x1) (ldKz i x1)) := by
  unfold out0_A_15
  rw [View.read_writes_eq_canon _ _ _ (cover0_A_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  sl_unfold_words
  rw [View.canon_unit_zero hz3]
  simp only [View.readAt_eq_ld, harg3.read_unread, harg4.read_unread]
  rfl

theorem out_A_16 :
    out0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = k0_pay11 (k0_pay5 (ldRows i x0) (ldKz i x1)) (k0_pay7 (ldRows i x0) (ldKx i x1) (ldKy i x1) (ldKz i x1)) := by
  unfold out0_A_16
  rw [View.read_writes_eq_canon _ _ _ (cover0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  sl_unfold_words
  rw [View.canon_unit_zero hz3]
  simp only [View.readAt_eq_ld, harg3.read_unread, harg4.read_unread]
  rfl

theorem out_A_12 :
    out0_A_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = k0_pay18 (k0_pay13 x3) (k0_pay14 (k0_pay6 (ldRows i x0) (ldKx i x1) (ldKy i x1) (ldKz i x1)) x10 x11 x3 x2) x4 x5 x6 x7 := by
  unfold out0_A_12
  rw [View.read_writes_eq_canon _ _ _ (cover0_A_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  sl_unfold_words
  rw [View.canon_unit_zero hz4]
  simp only [View.readAt_eq_ld, harg3.read_unread, harg4.read_unread, harg5.read_unread, harg6.read_unread, harg7.read_unread, harg8.read_unread, harg9.read_unread, harg10.read_unread, harg13.read_unread, harg14.read_unread,
    View.ld_unit_zero (S := S128) hz1, View.ld_unit_zero (S := S32) hz1, View.ld_unit_zero (S := S128x128) hz2, View.ld_unit_zero (S := S32x128) hz2, View.ld_unit_zero (S := S1x128x128) hz3]
  rfl

theorem sout_A_0 :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = k0_pay17 (k0_pay13 x3) (k0_pay14 (k0_pay6 (ldRows i x0) (ldKx i x1) (ldKy i x1) (ldKz i x1)) x10 x11 x3 x2) (k0_pay16 (F := Ideal)) := by
  unfold sout0_A_0
  rw [View.read_writes_eq_canon _ _ _ (scover0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  sl_unfold_words
  rw [View.canon_cons_unit_zero (S := S128x128) hz2, View.readCov_unit_zero (S := S128x128) _ hz2]
  simp only [View.readAt_eq_ld, harg3.read_unread, harg4.read_unread, harg5.read_unread, harg6.read_unread, harg7.read_unread, harg8.read_unread, harg9.read_unread, harg10.read_unread, harg13.read_unread, harg14.read_unread,
    View.ld_unit_zero (S := S128) hz1, View.ld_unit_zero (S := S32) hz1, View.ld_unit_zero (S := S128x128) hz2, View.ld_unit_zero (S := S32x128) hz2, View.ld_unit_zero (S := S1x128x128) hz3]
  rfl

end

end Cert.KernelIdeal.Val

end
-- ==== Proof.KV.PiecesB.lean ====
import proofs.«407687_j69655779606854_3_alg».proof.Proof.KI.Frame
import proofs.«407687_j69655779606854_3_alg».proof.Proof.KV.Loads
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

open Idealize.ShloMosaic.Tactic

section
variable (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S32x128 .f32) (harg9 : arg9.IsWhole) (arg10 : Memref sig .tc .vmem S32 .f32) (harg10 : arg10.IsWhole) (arg11 : Memref sig .tc .vmem S128x768 .f32) (harg11 : arg11.IsWhole) (arg12 : Memref sig .tc .vmem S768 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x32x128x128 .f32) (harg15 : arg15.IsWhole) (arg16 : Memref sig .tc .vmem S1x128x768 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S128x128 .f32) (harg20 : arg20.IsWhole) (hc0 : ¬cond0_0 i) (hc1 : ¬cond0_1 i)
  (x0 : Vec Ideal S1x512x3 .f32) (x1 : Vec Ideal S1x3x512 .f32) (x2 : Vec Ideal S128 .f32) (x3 : Vec Ideal S128 .f32) (x4 : Vec Ideal S128x128 .f32) (x5 : Vec Ideal S128 .f32) (x6 : Vec Ideal S32x128 .f32) (x7 : Vec Ideal S32 .f32) (x8 : Vec Ideal S128x768 .f32) (x9 : Vec Ideal S768 .f32) (x10 : Vec Ideal S1x128x128 .f32) (x11 : Vec Ideal S1x128x128 .f32) (xs0 : Vec Ideal S128x128 .f32)

theorem out_B_14 :
    out0_B_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay9 (k0_pay8 (ldRows i x0) (ldKx i x1) (ldKy i x1) (ldKz i x1)) := by
  unfold out0_B_14
  rw [View.read_writes_eq_canon _ _ _ (cover0_B_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_B
  dsimp only
  sl_unfold_words
  rw [View.canon_unit_zero hz3]
  simp only [View.readAt_eq_ld, harg3.read_unread, harg4.read_unread]
  rfl

theorem out_B_15 :
    out0_B_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay10 (k0_pay4 (ldRows i x0) (ldKy i x1)) (k0_pay7 (ldRows i x0) (ldKx i x1) (ldKy i x1) (ldKz i x1)) := by
  unfold out0_B_15
  rw [View.read_writes_eq_canon _ _ _ (cover0_B_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_B
  dsimp only
  sl_unfold_words
  rw [View.canon_unit_zero hz3]
  simp only [View.readAt_eq_ld, harg3.read_unread, harg4.read_unread]
  rfl

theorem out_B_16 :
    out0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay11 (k0_pay5 (ldRows i x0) (ldKz i x1)) (k0_pay7 (ldRows i x0) (ldKx i x1) (ldKy i x1) (ldKz i x1)) := by
  unfold out0_B_16
  rw [View.read_writes_eq_canon _ _ _ (cover0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_B
  dsimp only
  sl_unfold_words
  rw [View.canon_unit_zero hz3]
  simp only [View.readAt_eq_ld, harg3.read_unread, harg4.read_unread]
  rfl

theorem out_B_12 :
    out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay18 (k0_pay13 x3) (k0_pay14 (k0_pay6 (ldRows i x0) (ldKx i x1) (ldKy i x1) (ldKz i x1)) x10 x11 x3 x2) x4 x5 x6 x7 := by
  unfold out0_B_12
  rw [View.read_writes_eq_canon _ _ _ (cover0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_B
  dsimp only
  sl_unfold_words
  rw [View.canon_unit_zero hz4]
  simp only [View.readAt_eq_ld, harg3.read_unread, harg4.read_unread, harg5.read_unread, harg6.read_unread, harg7.read_unread, harg8.read_unread, harg9.read_unread, harg10.read_unread, harg13.read_unread, harg14.read_unread, View.ld_unit_zero (S := S128) hz1, View.ld_unit_zero (S := S128x128) hz2, View.ld_unit_zero (S := S32x128) hz2, View.ld_unit_zero (S := S32) hz1, View.ld_unit_zero (S := S1x128x128) hz3]
  rfl

theorem sout_B_0 :
    sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay17 (k0_pay13 x3) (k0_pay14 (k0_pay6 (ldRows i x0) (ldKx i x1) (ldKy i x1) (ldKz i x1)) x10 x11 x3 x2) xs0 := by
  unfold sout0_B_0
  rw [View.read_writes_eq_canon _ _ _ (scover0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_B
  dsimp only
  sl_unfold_words
  rw [View.canon_unit_zero hz2]
  simp only [View.readAt_eq_ld, harg3.read_unread, harg4.read_unread, harg5.read_unread, harg6.read_unread, harg13.read_unread, harg14.read_unread, harg20.read_unread, View.ld_unit_zero (S := S128) hz1, View.ld_unit_zero (S := S128x128) hz2, View.ld_unit_zero (S := S1x128x128) hz3]
  rfl

end

end Cert.KernelIdeal.Val

end
-- ==== Proof.KV.PiecesC.lean ====
import proofs.«407687_j69655779606854_3_alg».proof.Proof.KI.Frame
import proofs.«407687_j69655779606854_3_alg».proof.Proof.KV.Loads
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

open Idealize.ShloMosaic.Tactic

section
variable (c : Dev nD) (i : grid0.Coords) (arg3 : Memref sig .tc .vmem S1x512x3 .f32) (harg3 : arg3.IsWhole) (arg4 : Memref sig .tc .vmem S1x3x512 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S32x128 .f32) (harg9 : arg9.IsWhole) (arg10 : Memref sig .tc .vmem S32 .f32) (harg10 : arg10.IsWhole) (arg11 : Memref sig .tc .vmem S128x768 .f32) (harg11 : arg11.IsWhole) (arg12 : Memref sig .tc .vmem S768 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x32x128x128 .f32) (harg15 : arg15.IsWhole) (arg16 : Memref sig .tc .vmem S1x128x768 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S128x128 .f32) (harg20 : arg20.IsWhole) (hc0 : ¬cond0_0 i) (hc1 : cond0_1 i)
  (x0 : Vec Ideal S1x512x3 .f32) (x1 : Vec Ideal S1x3x512 .f32) (x2 : Vec Ideal S128 .f32) (x3 : Vec Ideal S128 .f32) (x4 : Vec Ideal S128x128 .f32) (x5 : Vec Ideal S128 .f32) (x6 : Vec Ideal S32x128 .f32) (x7 : Vec Ideal S32 .f32) (x8 : Vec Ideal S128x768 .f32) (x9 : Vec Ideal S768 .f32) (x10 : Vec Ideal S1x128x128 .f32) (x11 : Vec Ideal S1x128x128 .f32) (xs0 : Vec Ideal S128x128 .f32)

theorem out_C_14 :
    out0_C_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay9 (k0_pay8 (ldRows i x0) (ldKx i x1) (ldKy i x1) (ldKz i x1)) := by
  unfold out0_C_14
  rw [View.read_writes_eq_canon _ _ _ (cover0_C_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_C
  dsimp only
  sl_unfold_words
  rw [View.canon_unit_zero hz3]
  simp only [View.readAt_eq_ld, harg3.read_unread, harg4.read_unread]
  rfl

theorem out_C_15 :
    out0_C_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay10 (k0_pay4 (ldRows i x0) (ldKy i x1)) (k0_pay7 (ldRows i x0) (ldKx i x1) (ldKy i x1) (ldKz i x1)) := by
  unfold out0_C_15
  rw [View.read_writes_eq_canon _ _ _ (cover0_C_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_C
  dsimp only
  sl_unfold_words
  rw [View.canon_unit_zero hz3]
  simp only [View.readAt_eq_ld, harg3.read_unread, harg4.read_unread]
  rfl

theorem out_C_16 :
    out0_C_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay11 (k0_pay5 (ldRows i x0) (ldKz i x1)) (k0_pay7 (ldRows i x0) (ldKx i x1) (ldKy i x1) (ldKz i x1)) := by
  unfold out0_C_16
  rw [View.read_writes_eq_canon _ _ _ (cover0_C_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_C
  dsimp only
  sl_unfold_words
  rw [View.canon_unit_zero hz3]
  simp only [View.readAt_eq_ld, harg3.read_unread, harg4.read_unread]
  rfl

theorem out_C_12 :
    out0_C_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay18 (k0_pay13 x3) (k0_pay14 (k0_pay6 (ldRows i x0) (ldKx i x1) (ldKy i x1) (ldKz i x1)) x10 x11 x3 x2) x4 x5 x6 x7 := by
  unfold out0_C_12
  rw [View.read_writes_eq_canon _ _ _ (cover0_C_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_C
  dsimp only
  sl_unfold_words
  rw [View.canon_unit_zero hz4]
  simp only [View.readAt_eq_ld, harg3.read_unread, harg4.read_unread, harg5.read_unread, harg6.read_unread, harg7.read_unread, harg8.read_unread, harg9.read_unread, harg10.read_unread, harg13.read_unread, harg14.read_unread, View.ld_unit_zero (S := S1x128x128) hz3, View.ld_unit_zero (S := S128) hz1, View.ld_unit_zero (S := S128x128) hz2, View.ld_unit_zero (S := S32x128) hz2, View.ld_unit_zero (S := S32) hz1]
  rfl

theorem sout_C_0 :
    sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay17 (k0_pay13 x3) (k0_pay14 (k0_pay6 (ldRows i x0) (ldKx i x1) (ldKy i x1) (ldKz i x1)) x10 x11 x3 x2) xs0 := by
  unfold sout0_C_0
  rw [View.read_writes_eq_canon _ _ _ (scover0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_C
  dsimp only
  sl_unfold_words
  rw [View.canon_unit_zero hz2]
  simp only [View.readAt_eq_ld, harg3.read_unread, harg4.read_unread, harg5.read_unread, harg6.read_unread, harg13.read_unread, harg14.read_unread, harg20.read_unread, View.ld_unit_zero (S := S1x128x128) hz3, View.ld_unit_zero (S := S128) hz1, View.ld_unit_zero (S := S128x128) hz2]
  rfl

theorem out_C_13 :
    out0_C_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 = k0_pay1 (k0_pay17 (k0_pay13 x3) (k0_pay14 (k0_pay6 (ldRows i x0) (ldKx i x1) (ldKy i x1) (ldKz i x1)) x10 x11 x3 x2) xs0) x8 x9 := by
  unfold out0_C_13
  rw [View.read_writes_eq_canon _ _ _ (cover0_C_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0)]
  unfold kernelRun0_C
  dsimp only
  sl_unfold_words
  rw [View.canon_unit_zero hz3]
  simp only [View.readAt_eq_ld, View.readCov_unit_zero (S := S128x128) _ hz2, harg3.read_unread, harg4.read_unread, harg5.read_unread, harg6.read_unread, harg11.read_unread, harg12.read_unread, harg13.read_unread, harg14.read_unread, harg20.read_unread, View.ld_unit_zero (S := S1x128x128) hz3, View.ld_unit_zero (S := S128) hz1, View.ld_unit_zero (S := S128x128) hz2, View.ld_unit_zero (S := S128x768) hz2, View.ld_unit_zero (S := S768) hz1]
  rfl

end

end Cert.KernelIdeal.Val

end
-- ==== Proof.PayAttn.lean ====
import proofs.«407687_j69655779606854_3_alg».proof.Proof.Gen.KernelIdeal.Skeleton
import proofs.«407687_j69655779606854_3_alg».proof.Proof.Tile
import Idealize.ShloMosaic.Lib.ValueIdx
import Idealize.ShloMosaic.Lib.Pipeline.Value
import Idealize.ShloMosaic.Lib.ValueLayout
import Idealize.ShloMosaic.PureOps.Ideal.Laws

noncomputable section

namespace Cert.Proof.Pay

open Idealize.ShloMosaic Idealize.ShloMosaic.ValueIdx Cert.KernelIdeal Cert.KernelIdeal.Gen
open scoped BigOperators

namespace Attn

section Layout
variable {α : Type}

theorem cast_cube_rows (x : (⟨3, ![128, 128, 128]⟩ : Shape).Idx → α)
    (h : (⟨3, ![128, 128, 128]⟩ : Shape).ShapeCasts ⟨2, ![16384, 128]⟩) (p q k : Fin 128) (m : Fin 16384)
    (hm : m.val = p.val * 128 + q.val) :
    shapeCast ⟨2, ![16384, 128]⟩ x h (ix2 m k) = x (ix3 p q k) :=
  shapeCast_apply x h _ _ (by
    rw [Shape.rowMajor_val_three, Shape.rowMajor_val_two]
    show (p.val * 128 + q.val) * 128 + k.val = m.val * 128 + k.val
    rw [hm])

theorem cast_rows_cube (x : (⟨2, ![32, 16384]⟩ : Shape).Idx → α)
    (h : (⟨2, ![32, 16384]⟩ : Shape).ShapeCasts ⟨3, ![32, 128, 128]⟩) (g : Fin 32) (p q : Fin 128) (m : Fin 16384)
    (hm : m.val = p.val * 128 + q.val) :
    shapeCast ⟨3, ![32, 128, 128]⟩ x h (ix3 g p q) = x (ix2 g m) :=
  shapeCast_apply x h _ _ (by
    rw [Shape.rowMajor_val_three, Shape.rowMajor_val_two]
    show g.val * 16384 + m.val = (g.val * 128 + p.val) * 128 + q.val
    omega)

theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem bcast_col {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

theorem hidDot_lhs_0 (i : S16384x128.Idx) (c : dot_S16384x128_S128x128_S16384x128_1_0_0_1_n_n.contr.Idx) :
    (dot_S16384x128_S128x128_S16384x128_1_0_0_1_n_n.lhsIdx i c 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl

theorem hidDot_lhs_1 (i : S16384x128.Idx) (c : dot_S16384x128_S128x128_S16384x128_1_0_0_1_n_n.contr.Idx) :
    (dot_S16384x128_S128x128_S16384x128_1_0_0_1_n_n.lhsIdx i c 1).val = (c ⟨0, by decide⟩).val :=
  dot_S16384x128_S128x128_S16384x128_1_0_0_1_n_n.lhsIdx_val_of_single rfl i c

theorem hidDot_rhs_0 (i : S16384x128.Idx) (c : dot_S16384x128_S128x128_S16384x128_1_0_0_1_n_n.contr.Idx) :
    (dot_S16384x128_S128x128_S16384x128_1_0_0_1_n_n.rhsIdx i c 0).val = (c ⟨0, by decide⟩).val :=
  dot_S16384x128_S128x128_S16384x128_1_0_0_1_n_n.rhsIdx_val_of_single rfl i c

theorem hidDot_rhs_1 (i : S16384x128.Idx) (c : dot_S16384x128_S128x128_S16384x128_1_0_0_1_n_n.contr.Idx) :
    (dot_S16384x128_S128x128_S16384x128_1_0_0_1_n_n.rhsIdx i c 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

theorem hidDot_apply (lhs : FVec Ideal S16384x128 .bf16) (rhs : FVec Ideal S128x128 .bf16) (m : Fin 16384) (k : Fin 128) :
    matmul dot_S16384x128_S128x128_S16384x128_1_0_0_1_n_n none lhs rhs (constant (F := Ideal) S16384x128 .f32 0x00000000#32) (ix2 m k)
      = ∑ k' : Fin 128, lhs (ix2 m k') * rhs (ix2 k' k) := by
  refine (Ideal.matmul_constant_zero_apply dot_S16384x128_S128x128_S16384x128_1_0_0_1_n_n none lhs rhs (ix2 m k)).trans ?_
  rw [← Equiv.sum_comp (ValueIdx.contrEquiv1 dot_S16384x128_S128x128_S16384x128_1_0_0_1_n_n 128 rfl rfl).symm]
  refine Finset.sum_congr rfl fun k' _ => ?_
  have hk := ValueIdx.contrEquiv1_symm_val dot_S16384x128_S128x128_S16384x128_1_0_0_1_n_n 128 rfl rfl k'
  have el : dot_S16384x128_S128x128_S16384x128_1_0_0_1_n_n.lhsIdx (ix2 m k) ((ValueIdx.contrEquiv1 dot_S16384x128_S128x128_S16384x128_1_0_0_1_n_n 128 rfl rfl).symm k') = ix2 m k' := funext fun a => Fin.ext (by
    match a with
    | ⟨0, _⟩ => exact hidDot_lhs_0 _ _
    | ⟨1, _⟩ => exact (hidDot_lhs_1 _ _).trans hk)
  have er : dot_S16384x128_S128x128_S16384x128_1_0_0_1_n_n.rhsIdx (ix2 m k) ((ValueIdx.contrEquiv1 dot_S16384x128_S128x128_S16384x128_1_0_0_1_n_n 128 rfl rfl).symm k') = ix2 k' k := funext fun a => Fin.ext (by
    match a with
    | ⟨0, _⟩ => exact (hidDot_rhs_0 _ _).trans hk
    | ⟨1, _⟩ => exact hidDot_rhs_1 _ _)
  rw [el, er]

theorem outDot_lhs_0 (i : S32x16384.Idx) (c : dot_S32x128_S16384x128_S32x16384_1_1_0_0_n_n.contr.Idx) :
    (dot_S32x128_S16384x128_S32x16384_1_1_0_0_n_n.lhsIdx i c 0).val = (i 0).val := by
  unfold DotDims.lhsIdx
  rw [dif_neg (show ¬(0 : Fin S32x128.rank) ∈ dot_S32x128_S16384x128_S32x16384_1_1_0_0_n_n.lhsBatch by decide), dif_pos (show (0 : Fin S32x128.rank) ∈ dot_S32x128_S16384x128_S32x16384_1_1_0_0_n_n.lhsNonContracting by decide)]
  rfl

theorem outDot_lhs_1 (i : S32x16384.Idx) (c : dot_S32x128_S16384x128_S32x16384_1_1_0_0_n_n.contr.Idx) :
    (dot_S32x128_S16384x128_S32x16384_1_1_0_0_n_n.lhsIdx i c 1).val = (c ⟨0, by decide⟩).val :=
  dot_S32x128_S16384x128_S32x16384_1_1_0_0_n_n.lhsIdx_val_of_single rfl i c

theorem outDot_rhs_0 (i : S32x16384.Idx) (c : dot_S32x128_S16384x128_S32x16384_1_1_0_0_n_n.contr.Idx) :
    (dot_S32x128_S16384x128_S32x16384_1_1_0_0_n_n.rhsIdx i c 0).val = (i 1).val := by
  unfold DotDims.rhsIdx
  rw [dif_neg (show ¬(0 : Fin S16384x128.rank) ∈ dot_S32x128_S16384x128_S32x16384_1_1_0_0_n_n.rhsBatch by decide), dif_pos (show (0 : Fin S16384x128.rank) ∈ dot_S32x128_S16384x128_S32x16384_1_1_0_0_n_n.rhsNonContracting by decide)]
  rfl

theorem outDot_rhs_1 (i : S32x16384.Idx) (c : dot_S32x128_S16384x128_S32x16384_1_1_0_0_n_n.contr.Idx) :
    (dot_S32x128_S16384x128_S32x16384_1_1_0_0_n_n.rhsIdx i c 1).val = (c ⟨0, by decide⟩).val :=
  dot_S32x128_S16384x128_S32x16384_1_1_0_0_n_n.rhsIdx_val_of_single rfl i c

theorem outDot_apply (lhs : FVec Ideal S32x128 .bf16) (rhs : FVec Ideal S16384x128 .bf16) (g : Fin 32) (m : Fin 16384) :
    matmul dot_S32x128_S16384x128_S32x16384_1_1_0_0_n_n none lhs rhs (constant (F := Ideal) S32x16384 .f32 0x00000000#32) (ix2 g m)
      = ∑ k : Fin 128, lhs (ix2 g k) * rhs (ix2 m k) := by
  refine (Ideal.matmul_constant_zero_apply dot_S32x128_S16384x128_S32x16384_1_1_0_0_n_n none lhs rhs (ix2 g m)).trans ?_
  rw [← Equiv.sum_comp (ValueIdx.contrEquiv1 dot_S32x128_S16384x128_S32x16384_1_1_0_0_n_n 128 rfl rfl).symm]
  refine Finset.sum_congr rfl fun k _ => ?_
  have hk := ValueIdx.contrEquiv1_symm_val dot_S32x128_S16384x128_S32x16384_1_1_0_0_n_n 128 rfl rfl k
  have el : dot_S32x128_S16384x128_S32x16384_1_1_0_0_n_n.lhsIdx (ix2 g m) ((ValueIdx.contrEquiv1 dot_S32x128_S16384x128_S32x16384_1_1_0_0_n_n 128 rfl rfl).symm k) = ix2 g k := funext fun a => Fin.ext (by
    match a with
    | ⟨0, _⟩ => exact outDot_lhs_0 _ _
    | ⟨1, _⟩ => exact (outDot_lhs_1 _ _).trans hk)
  have er : dot_S32x128_S16384x128_S32x16384_1_1_0_0_n_n.rhsIdx (ix2 g m) ((ValueIdx.contrEquiv1 dot_S32x128_S16384x128_S32x16384_1_1_0_0_n_n 128 rfl rfl).symm k) = ix2 m k := funext fun a => Fin.ext (by
    match a with
    | ⟨0, _⟩ => exact outDot_rhs_0 _ _
    | ⟨1, _⟩ => exact (outDot_rhs_1 _ _).trans hk)
  rw [el, er]

def hidRows (ps : FVec Ideal S128x128x128 .f32) (v95 : Vec Ideal S128x128 .f32) (v99 : Vec Ideal S128 .f32) :
    FVec Ideal S16384x128 .f32 :=
  maximumf
    (addf
      (matmul dot_S16384x128_S128x128_S16384x128_1_0_0_1_n_n none
        (truncf .bf16 (shapeCast S16384x128 ps shapeCasts_S128x128x128_S16384x128 : FVec Ideal S16384x128 .f32) bitsLt_bf16_f32)
        (truncf .bf16 (shapeCast S128x128 v95 shapeCasts_S128x128_S128x128 : FVec Ideal S128x128 .f32) bitsLt_bf16_f32)
        (constant S16384x128 .f32 0x00000000#32))
      (broadcastTo S16384x128 (shapeCast S1x128 v99 shapeCasts_S128_S1x128 : FVec Ideal S1x128 .f32) broadcasts_S1x128_S16384x128))
    (broadcast S16384x128 (Scalar.ofBits .f32 0x00000000#32 : Ideal .f32))

def attnBlock (hv : FVec Ideal S16384x128 .f32) (v106 : Vec Ideal S32x128 .f32) (v109 : Vec Ideal S32 .f32) :
    FVec Ideal S1x32x128x128 .f32 :=
  shapeCast S1x32x128x128
    (shapeCast S32x128x128
      (addf
        (matmul dot_S32x128_S16384x128_S32x16384_1_1_0_0_n_n none
          (truncf .bf16 (v106 : FVec Ideal S32x128 .f32) bitsLt_bf16_f32) (truncf .bf16 hv bitsLt_bf16_f32)
          (constant S32x16384 .f32 0x00000000#32))
        (broadcastTo S32x16384 (shapeCast S32x1 v109 shapeCasts_S32_S32x1 : FVec Ideal S32x1 .f32) broadcasts_S32x1_S32x16384))
      shapeCasts_S32x16384_S32x128x128 : FVec Ideal S32x128x128 .f32)
    shapeCasts_S32x128x128_S1x32x128x128

theorem pay18_eq_stages (v70 : FVec Ideal S128 .f32) (v80 : FVec Ideal S128x128x128 .f32) (v95 : Vec Ideal S128x128 .f32)
    (v99 : Vec Ideal S128 .f32) (v106 : Vec Ideal S32x128 .f32) (v109 : Vec Ideal S32 .f32) :
    k0_pay18 (F := Ideal) v70 v80 v95 v99 v106 v109
      = attnBlock (hidRows (k0_pay15 (F := Ideal) v70 v80) v95 v99) v106 v109 := rfl

theorem hidRows_at (ps : FVec Ideal S128x128x128 .f32) (v95 : Vec Ideal S128x128 .f32) (v99 : Vec Ideal S128 .f32)
    (p q k : Fin 128) (m : Fin 16384) (hm : m.val = p.val * 128 + q.val) :
    hidRows ps v95 v99 (ix2 m k) = Cert.Tile.hid (fun p q k => ps (ix3 p q k)) v95 v99 p q k := by
  unfold hidRows Cert.Tile.hid
  refine (maximumf_apply _ _ _).trans (congrArg₂ max ?_ Ideal.ofBits_zero_f32)
  refine (addf_apply _ _ _).trans (congrArg₂ (· + ·) ?_ ?_)
  · refine (hidDot_apply _ _ m k).trans (Finset.sum_congr rfl fun k' _ => congrArg₂ (· * ·) ?_ ?_)
    · exact cast_cube_rows ps _ p q k' m hm
    · exact congrFun (shapeCast_self v95 _) (ix2 k' k)
  · exact (broadcastTo_1b_ab_apply _ _ m k).trans (shapeCast_a_1a_apply v99 _ 0 k)

theorem attnBlock_at (hv : FVec Ideal S16384x128 .f32) (v106 : Vec Ideal S32x128 .f32) (v109 : Vec Ideal S32 .f32)
    (g : Fin 32) (p q : Fin 128) (m : Fin 16384) (hm : m.val = p.val * 128 + q.val) :
    attnBlock hv v106 v109 (ix4 0 g p q) = ∑ k : Fin 128, v106 (ix2 g k) * hv (ix2 m k) + v109 (ix1 g) := by
  unfold attnBlock
  refine (shapeCast_abc_1abc_apply _ _ 0 g p q).trans ?_
  refine (cast_rows_cube _ _ g p q m hm).trans ?_
  refine (addf_apply _ _ _).trans (congrArg₂ (· + ·) ?_ ?_)
  · exact outDot_apply _ _ g m
  · exact (bcast_col _ _ g m).trans (cast_col v109 _ g 0)

end Attn

open Attn

theorem pay18_at (v70 : FVec Ideal S128 .f32) (v80 : FVec Ideal S128x128x128 .f32) (v95 : Vec Ideal S128x128 .f32) (v99 : Vec Ideal S128 .f32)
    (v106 : Vec Ideal S32x128 .f32) (v109 : Vec Ideal S32 .f32) (h : Fin 32) (p q : Fin 128) :
    k0_pay18 (F := Ideal) v70 v80 v95 v99 v106 v109 (ix4 0 h p q)
      = Cert.Tile.attn (fun p q k => k0_pay15 (F := Ideal) v70 v80 (ix3 p q k)) v95 v99 v106 v109 h p q := by
  have hlt : p.val * 128 + q.val < 16384 := by have := p.isLt; have := q.isLt; omega
  rw [pay18_eq_stages]
  refine (attnBlock_at _ v106 v109 h p q ⟨p.val * 128 + q.val, hlt⟩ rfl).trans ?_
  unfold Cert.Tile.attn
  exact congrArg (· + v109 (ix1 h)) (Finset.sum_congr rfl fun k _ =>
    congrArg (v106 (ix2 h k) * ·) (hidRows_at _ v95 v99 p q k ⟨p.val * 128 + q.val, hlt⟩ rfl))

end Cert.Proof.Pay

end
-- ==== Proof.KV.ValAttn.lean ====
import proofs.«407687_j69655779606854_3_alg».proof.Proof.KV.ValPsi
import proofs.«407687_j69655779606854_3_alg».proof.Proof.KV.PiecesA
import proofs.«407687_j69655779606854_3_alg».proof.Proof.KV.PiecesB
import proofs.«407687_j69655779606854_3_alg».proof.Proof.KV.PiecesC
import proofs.«407687_j69655779606854_3_alg».proof.Proof.PayAttn

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

theorem pay18_tile (c : Dev nD) (t : Fin cfg0.N) (h : Fin 32) (p q : Fin 128) :
    k0_pay18 (F := Ideal) (k0_pay13 (F := Ideal) (blk3 m c t))
        (k0_pay14 (F := Ideal) (k0_pay6 (F := Ideal) (ldRows (grid0.coords t) (blk0 m c t)) (ldKx (grid0.coords t) (blk1 m c t)) (ldKy (grid0.coords t) (blk1 m c t)) (ldKz (grid0.coords t) (blk1 m c t))) (blk10 m c t) (blk11 m c t) (blk3 m c t) (blk2 m c t))
        (blk4 m c t) (blk5 m c t) (blk6 m c t) (blk7 m c t) (ix4 0 h p q)
      = Cert.Spec.attn (PsiA m c) (w1A m c) (b1A m c) (w2A m c) (b2A m c) (ix4 (bT t) h (Cert.Tile.node (IT t) p) (Cert.Tile.node (JT t) q)) := by
  refine (Cert.Proof.Pay.pay18_at (k0_pay13 (F := Ideal) (blk3 m c t))
        (k0_pay14 (F := Ideal) (k0_pay6 (F := Ideal) (ldRows (grid0.coords t) (blk0 m c t)) (ldKx (grid0.coords t) (blk1 m c t)) (ldKy (grid0.coords t) (blk1 m c t)) (ldKz (grid0.coords t) (blk1 m c t))) (blk10 m c t) (blk11 m c t) (blk3 m c t) (blk2 m c t))
    (blk4 m c t) (blk5 m c t) (blk6 m c t) (blk7 m c t) h p q).trans ?_
  rw [blk5_b1 m c t, blk6_w2 m c t, blk7_b2 m c t]
  exact Cert.Tile.attn_eq (Ψ := PsiA m c) (b := bT t) (I := IT t) (J := JT t)
    (fun p q k => psi_at m c t p q k) (fun k h => blk4_w1t m c t k h) (b1A m c) (w2A m c) (b2A m c) h p q

theorem attn_at (c : Dev nD) (t : Fin cfg0.N) (h : Fin 32) (p q : Fin 128) :
    (outsAt0 m c t.val t.isLt).1 (ix4 0 h p q)
      = Cert.Spec.attn (PsiA m c) (w1A m c) (b1A m c) (w2A m c) (b2A m c) (ix4 (bT t) h (Cert.Tile.node (IT t) p) (Cert.Tile.node (JT t) q)) := by
  by_cases h0 : t.val % 4 = 0
  · by_cases h1 : t.val % 4 = 3
    · exfalso; omega
    · rw [outsAt0_A m c t h0 h1]; dsimp only [outsA]
      refine (congrFun (out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _)
        ((hcond0_0 t).mpr h0) (fun h => h1 ((hcond0_1 t).mp h))
        (blk0 m c t) (blk1 m c t) (blk2 m c t) (blk3 m c t) (blk4 m c t) (blk5 m c t) (blk6 m c t) (blk7 m c t) (blk8 m c t) (blk9 m c t) (blk10 m c t) (blk11 m c t)) (ix4 0 h p q)).trans ?_
      exact pay18_tile m c t h p q
  · by_cases h1 : t.val % 4 = 3
    · rw [outsAt0_C m c t h0 h1]; dsimp only [outsC]
      refine (congrFun (out_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _)
        (fun h => h0 ((hcond0_0 t).mp h)) ((hcond0_1 t).mpr h1)
        (blk0 m c t) (blk1 m c t) (blk2 m c t) (blk3 m c t) (blk4 m c t) (blk5 m c t) (blk6 m c t) (blk7 m c t) (blk8 m c t) (blk9 m c t) (blk10 m c t) (blk11 m c t)
        ((outsAt0 m c (t.val - 1) (Nat.lt_of_le_of_lt (Nat.sub_le _ _) t.isLt)).2.2.2.2.2)) (ix4 0 h p q)).trans ?_
      exact pay18_tile m c t h p q
    · rw [outsAt0_B m c t h0 h1]; dsimp only [outsB]
      refine (congrFun (out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _)
        (fun h => h0 ((hcond0_0 t).mp h)) (fun h => h1 ((hcond0_1 t).mp h))
        (blk0 m c t) (blk1 m c t) (blk2 m c t) (blk3 m c t) (blk4 m c t) (blk5 m c t) (blk6 m c t) (blk7 m c t) (blk8 m c t) (blk9 m c t) (blk10 m c t) (blk11 m c t)
        ((outsAt0 m c (t.val - 1) (Nat.lt_of_le_of_lt (Nat.sub_le _ _) t.isLt)).2.2.2.2.2)) (ix4 0 h p q)).trans ?_
      exact pay18_tile m c t h p q

end Cert.KernelIdeal.Val

end
-- ==== Proof.KV.Final12.lean ====
import proofs.«407687_j69655779606854_3_alg».proof.Proof.KV.ValAttn
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

theorem blockIdx12 : ∀ t : Fin cfg0.N, win0_12.index t (0 : Fin 4) = (grid0.coords t 0).val
    ∧ win0_12.index t (1 : Fin 4) = 0
    ∧ win0_12.index t (2 : Fin 4) = (grid0.coords t 1).val
    ∧ win0_12.index t (3 : Fin 4) = (grid0.coords t 2).val :=
  (by decide +kernel : ∀ t : Fin grid0.N, _)

theorem blockIdx12_onto : ∀ (b : Fin 2) (I J : Fin 4), ∃ t : Fin cfg0.N, win0_12.index t = ![b.val, 0, I.val, J.val] :=
  (by decide +kernel : ∀ (b : Fin 2) (I J : Fin 4), ∃ t : Fin grid0.N, win0_12.index t = ![b.val, 0, I.val, J.val])

theorem flushed12_eq (c : Dev nD) (t : Fin cfg0.N) :
    (dats m 0 c).flushed 12 t = ((cfg0.win 12).blk t).view.read (Elt Ideal)
      (Cert.Spec.attn (PsiA m c) (w1A m c) (b1A m c) (w2A m c) (b2A m c)) := by
  show (cfg0.win 12).cut (grid0.coords t) ((dats m 0 c).after 12 t) = _
  rw [after0_12]
  refine funext fun (y : S1x32x128x128.Idx) => ?_
  obtain ⟨a, h, p, q, rfl⟩ : ∃ (a : Fin 1) (h : Fin 32) (p q : Fin 128), y = ix4 a h p q := ⟨y 0, y 1, y 2, y 3, eq_ix4 y⟩
  obtain rfl : a = 0 := Subsingleton.elim _ _
  have el : (cfg0.win 12).xinj (grid0.coords t) (ix4 0 h p q) = ix4 0 h p q :=
    funext fun a => Fin.ext (by match a with | ⟨0, _⟩ => rfl | ⟨1, _⟩ => rfl | ⟨2, _⟩ => rfl | ⟨3, _⟩ => rfl)
  show (outsAt0 m c t.val t.isLt).1 ((cfg0.win 12).xinj (grid0.coords t) (ix4 0 h p q)) = _
  rw [el, attn_at, View.read_apply]
  obtain ⟨e0, e1, e2, e3⟩ := blockIdx12 t
  refine congrArg _ (funext fun a => Fin.ext ?_)
  match a with
  | ⟨0, _⟩ => show (grid0.coords t 0).val = win0_12.index t (0 : Fin 4) * 1 + 1 * 0; omega
  | ⟨1, _⟩ => show h.val = win0_12.index t (1 : Fin 4) * 32 + 1 * h.val; omega
  | ⟨2, _⟩ => show (grid0.coords t 1).val * 128 + p.val = win0_12.index t (2 : Fin 4) * 128 + 1 * p.val; omega
  | ⟨3, _⟩ => show (grid0.coords t 2).val * 128 + q.val = win0_12.index t (3 : Fin 4) * 128 + 1 * q.val; omega

theorem mem_blk12 (t : Fin cfg0.N) (i : S2x32x512x512.Idx) :
    i ∈ ((cfg0.win 12).blk t).view.set ↔ ∀ a : Fin 4, win0_12.index t a * S1x32x128x128.size a ≤ (i a).val
      ∧ (i a).val < win0_12.index t a * S1x32x128x128.size a + S1x32x128x128.size a := by
  show i ∈ ((View.whole main_v19_0).slice (win0_12.rect t)).set ↔ _
  rw [View.set_slice_whole, Rect.mem_set_unit]
  exact Iff.rfl

theorem cover12 (i : S2x32x512x512.Idx) :
    ∃ t : Fin cfg0.N, (cfg0.win 12).flush t = true ∧ i ∈ ((cfg0.win 12).blk t).view.set := by
  have hi0 : (i 0).val < 2 := (i 0).isLt
  have hi1 : (i 1).val < 32 := (i 1).isLt
  have hi2 : (i 2).val < 512 := (i 2).isLt
  have hi3 : (i 3).val < 512 := (i 3).isLt
  obtain ⟨t, ht⟩ := blockIdx12_onto ⟨(i 0).val, hi0⟩ ⟨(i 2).val / 128, by omega⟩ ⟨(i 3).val / 128, by omega⟩
  have q0 : win0_12.index t (0 : Fin 4) = (i 0).val := congrFun ht 0
  have q1 : win0_12.index t (1 : Fin 4) = 0 := congrFun ht 1
  have q2 : win0_12.index t (2 : Fin 4) = (i 2).val / 128 := congrFun ht 2
  have q3 : win0_12.index t (3 : Fin 4) = (i 3).val / 128 := congrFun ht 3
  refine ⟨t, flush0_12 t, ?_⟩
  rw [mem_blk12]
  intro a
  match a with
  | ⟨0, _⟩ => show win0_12.index t (0 : Fin 4) * 1 ≤ (i 0).val ∧ (i 0).val < win0_12.index t (0 : Fin 4) * 1 + 1; omega
  | ⟨1, _⟩ => show win0_12.index t (1 : Fin 4) * 32 ≤ (i 1).val ∧ (i 1).val < win0_12.index t (1 : Fin 4) * 32 + 32; omega
  | ⟨2, _⟩ => show win0_12.index t (2 : Fin 4) * 128 ≤ (i 2).val ∧ (i 2).val < win0_12.index t (2 : Fin 4) * 128 + 128; omega
  | ⟨3, _⟩ => show win0_12.index t (3 : Fin 4) * 128 ≤ (i 3).val ∧ (i 3).val < win0_12.index t (3 : Fin 4) * 128 + 128; omega

theorem final12 (c : Dev nD) :
    (dats m 0 c).arrAt 12 cfg0.N = Cert.Spec.attn (PsiA m c) (w1A m c) (b1A m c) (w2A m c) (b2A m c) :=
  (dats m 0 c).arrAt_eq_of_cover 12 _ (fun t _ => flushed12_eq m c t) cover12

end Cert.KernelIdeal.Val

end
-- ==== Proof.PayAcc.lean ====
import proofs.«407687_j69655779606854_3_alg».proof.Proof.Gen.KernelIdeal.Skeleton
import proofs.«407687_j69655779606854_3_alg».proof.Proof.Tile
import Idealize.ShloMosaic.Lib.ValueIdx
import Idealize.ShloMosaic.Lib.Pipeline.Value
import Idealize.ShloMosaic.PureOps.Ideal.Laws

noncomputable section

namespace Cert.Proof.Pay

open Idealize.ShloMosaic Idealize.ShloMosaic.ValueIdx Cert.KernelIdeal Cert.KernelIdeal.Gen

theorem pay16_at (p k : Fin 128) : k0_pay16 (F := Ideal) (ix2 p k) = 0 := by
  unfold k0_pay16
  show shapeCast S128x128 (broadcast S128x128 (Scalar.ofBits (F := Ideal) .f32 0x00000000#32)) shapeCasts_S128x128_S128x128 (ix2 p k) = 0
  rw [shapeCast_self]
  exact Ideal.ofBits_zero_f32

theorem sum_mid (y : FVec Ideal S128x128x128 .f32) (p k : Fin 128) :
    multiReduction (F := Ideal) .add [1] S128x128 y 0x00000000#32 reduces_S128x128x128_S128x128 (.inl rfl) rfl (ix2 p k)
      = ∑ q : Fin 128, y (ix3 p q k) := by
  refine (Ideal.multiReduction_add_single y _ reduces_S128x128x128_S128x128 _ _ (ix2 p k)).trans ?_
  refine Finset.sum_congr rfl fun q _ => ?_
  exact congrArg y (funext fun a => Fin.ext (by match a with | ⟨0, _⟩ => rfl | ⟨1, _⟩ => rfl | ⟨2, _⟩ => rfl))

theorem pay17_at (v70 : FVec Ideal S128 .f32) (v80 : FVec Ideal S128x128x128 .f32) (v87 : Vec Ideal S128x128 .f32) (p k : Fin 128) :
    k0_pay17 (F := Ideal) v70 v80 v87 (ix2 p k) = v87 (ix2 p k) + Cert.Tile.rowSum (fun p q k => k0_pay15 (F := Ideal) v70 v80 (ix3 p q k)) p k := by
  unfold k0_pay17
  generalize k0_pay15 (F := Ideal) v70 v80 = y
  show shapeCast S128x128 (addf v87 (multiReduction (F := Ideal) .add [1] S128x128 y 0x00000000#32 reduces_S128x128x128_S128x128 (.inl rfl) rfl)) shapeCasts_S128x128_S128x128 (ix2 p k) = _
  rw [shapeCast_self]
  show v87 (ix2 p k) + multiReduction (F := Ideal) .add [1] S128x128 y 0x00000000#32 reduces_S128x128x128_S128x128 (.inl rfl) rfl (ix2 p k) = _
  rw [sum_mid]
  rfl

theorem lhs_proj_0 (i : S128x768.Idx) (q : dot_S128x128_S128x768_S128x768_1_0_0_1_n_n.contr.Idx) :
    (dot_S128x128_S128x768_S128x768_1_0_0_1_n_n.lhsIdx i q 0).val = (i 0).val := by
  unfold DotDims.lhsIdx
  rw [dif_neg (show ¬(0 : Fin S128x128.rank) ∈ dot_S128x128_S128x768_S128x768_1_0_0_1_n_n.lhsBatch by decide), dif_pos (show (0 : Fin S128x128.rank) ∈ dot_S128x128_S128x768_S128x768_1_0_0_1_n_n.lhsNonContracting by decide)]
  rfl

theorem lhs_proj_1 (i : S128x768.Idx) (q : dot_S128x128_S128x768_S128x768_1_0_0_1_n_n.contr.Idx) :
    (dot_S128x128_S128x768_S128x768_1_0_0_1_n_n.lhsIdx i q 1).val = (q ⟨0, by decide⟩).val :=
  dot_S128x128_S128x768_S128x768_1_0_0_1_n_n.lhsIdx_val_of_single rfl i q

theorem rhs_proj_0 (i : S128x768.Idx) (q : dot_S128x128_S128x768_S128x768_1_0_0_1_n_n.contr.Idx) :
    (dot_S128x128_S128x768_S128x768_1_0_0_1_n_n.rhsIdx i q 0).val = (q ⟨0, by decide⟩).val :=
  dot_S128x128_S128x768_S128x768_1_0_0_1_n_n.rhsIdx_val_of_single rfl i q

theorem rhs_proj_1 (i : S128x768.Idx) (q : dot_S128x128_S128x768_S128x768_1_0_0_1_n_n.contr.Idx) :
    (dot_S128x128_S128x768_S128x768_1_0_0_1_n_n.rhsIdx i q 1).val = (i 1).val := by
  unfold DotDims.rhsIdx
  rw [dif_neg (show ¬(1 : Fin S128x768.rank) ∈ dot_S128x128_S128x768_S128x768_1_0_0_1_n_n.rhsBatch by decide), dif_pos (show (1 : Fin S128x768.rank) ∈ dot_S128x128_S128x768_S128x768_1_0_0_1_n_n.rhsNonContracting by decide)]
  rfl

theorem proj_at (a : FVec Ideal S128x128 .f32) (w : FVec Ideal S128x768 .f32) (p : Fin 128) (e : Fin 768) :
    matmul dot_S128x128_S128x768_S128x768_1_0_0_1_n_n (some .fp32) a w (constant (F := Ideal) S128x768 .f32 0x00000000#32) (ix2 p e)
      = ∑ k : Fin 128, a (ix2 p k) * w (ix2 k e) := by
  refine (Ideal.matmul_constant_zero_apply dot_S128x128_S128x768_S128x768_1_0_0_1_n_n (some .fp32) a w (ix2 p e)).trans ?_
  rw [← Equiv.sum_comp (contrEquiv1 dot_S128x128_S128x768_S128x768_1_0_0_1_n_n 128 rfl rfl).symm]
  refine Finset.sum_congr rfl fun k _ => ?_
  have hk := contrEquiv1_symm_val dot_S128x128_S128x768_S128x768_1_0_0_1_n_n 128 rfl rfl k
  have el : dot_S128x128_S128x768_S128x768_1_0_0_1_n_n.lhsIdx (ix2 p e) ((contrEquiv1 dot_S128x128_S128x768_S128x768_1_0_0_1_n_n 128 rfl rfl).symm k) = ix2 p k := funext fun b => Fin.ext (by
    match b with
    | ⟨0, _⟩ => exact lhs_proj_0 _ _
    | ⟨1, _⟩ => exact (lhs_proj_1 _ _).trans hk)
  have er : dot_S128x128_S128x768_S128x768_1_0_0_1_n_n.rhsIdx (ix2 p e) ((contrEquiv1 dot_S128x128_S128x768_S128x768_1_0_0_1_n_n 128 rfl rfl).symm k) = ix2 k e := funext fun b => Fin.ext (by
    match b with
    | ⟨0, _⟩ => exact (rhs_proj_0 _ _).trans hk
    | ⟨1, _⟩ => exact rhs_proj_1 _ _)
  rw [el, er]

theorem bias_at (b : FVec Ideal S768 .f32) (p : Fin 128) (e : Fin 768) :
    broadcastTo S128x768 (shapeCast S1x768 b shapeCasts_S768_S1x768) broadcasts_S1x768_S128x768 (ix2 p e) = b (ix1 e) := by
  refine (broadcastTo_apply _ broadcasts_S1x768_S128x768 (ix2 p e) (ix2 0 e) (fun a => match a with
    | ⟨0, _⟩ => by show 0 = if (1 : Nat) = 1 then 0 else _; rw [if_pos rfl]
    | ⟨1, _⟩ => by show e.val = if (768 : Nat) = 1 then 0 else e.val; rw [if_neg (by decide)])).trans ?_
  refine shapeCast_apply b shapeCasts_S768_S1x768 (ix2 0 e) (ix1 e) ?_
  rw [Shape.rowMajor_val_one, Shape.rowMajor_val_two]
  show e.val = 0 * _ + e.val
  omega

theorem pay1_at (v120 : Vec Ideal S128x128 .f32) (v121 : Vec Ideal S128x768 .f32) (v124 : Vec Ideal S768 .f32) (p : Fin 128) (e : Fin 768) :
    k0_pay1 (F := Ideal) v120 v121 v124 (ix3 0 p e) = Cert.Tile.merged v120 v121 v124 p e := by
  unfold k0_pay1
  show shapeCast S1x128x768 (addf (matmul dot_S128x128_S128x768_S128x768_1_0_0_1_n_n (some .fp32) v120 (shapeCast S128x768 v121 shapeCasts_S128x768_S128x768) (constant (F := Ideal) S128x768 .f32 0x00000000#32))
      (broadcastTo S128x768 (shapeCast S1x768 v124 shapeCasts_S768_S1x768) broadcasts_S1x768_S128x768)) shapeCasts_S128x768_S1x128x768 (ix3 0 p e) = _
  rw [shapeCast_self]
  refine (shapeCast_apply _ shapeCasts_S128x768_S1x128x768 (ix3 0 p e) (ix2 p e) ?_).trans ?_
  · rw [Shape.rowMajor_val_two, Shape.rowMajor_val_three]
    show p.val * 768 + e.val = (0 * 128 + p.val) * 768 + e.val
    omega
  · show matmul dot_S128x128_S128x768_S128x768_1_0_0_1_n_n (some .fp32) v120 v121 (constant (F := Ideal) S128x768 .f32 0x00000000#32) (ix2 p e)
        + broadcastTo S128x768 (shapeCast S1x768 v124 shapeCasts_S768_S1x768) broadcasts_S1x768_S128x768 (ix2 p e) = _
    rw [proj_at, bias_at]
    rfl

end Cert.Proof.Pay

end
-- ==== Proof.KV.ValAcc.lean ====
import proofs.«407687_j69655779606854_3_alg».proof.Proof.KV.ValPsi
import proofs.«407687_j69655779606854_3_alg».proof.Proof.KV.PiecesA
import proofs.«407687_j69655779606854_3_alg».proof.Proof.KV.PiecesB
import proofs.«407687_j69655779606854_3_alg».proof.Proof.KV.PiecesC
import proofs.«407687_j69655779606854_3_alg».proof.Proof.PayAcc

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

private theorem coords_val : ∀ t : Fin cfg0.N, (grid0.coords t 0).val = t.val / 16 ∧ (grid0.coords t 1).val = t.val / 4 % 4 ∧ (grid0.coords t 2).val = t.val % 4 :=
  (by decide +kernel : ∀ t : Fin grid0.N, _)

private theorem bT_val (t : Fin cfg0.N) : (bT t).val = t.val / 16 := (coords_val t).1
private theorem IT_val (t : Fin cfg0.N) : (IT t).val = t.val / 4 % 4 := (coords_val t).2.1
private theorem JT_val (t : Fin cfg0.N) : (JT t).val = t.val % 4 := (coords_val t).2.2

private theorem JT_zero (t : Fin cfg0.N) (h0 : t.val % 4 = 0) : JT t = 0 := Fin.ext ((JT_val t).trans h0)

private theorem prev_coords (t : Fin cfg0.N) (h0 : ¬t.val % 4 = 0) (hlt : t.val - 1 < cfg0.N) :
    bT ⟨t.val - 1, hlt⟩ = bT t ∧ IT ⟨t.val - 1, hlt⟩ = IT t ∧ (JT t).val = (JT ⟨t.val - 1, hlt⟩).val + 1 := by
  have a0 := bT_val t
  have a1 := IT_val t
  have a2 := JT_val t
  have b0 := bT_val ⟨t.val - 1, hlt⟩
  have b1 := IT_val ⟨t.val - 1, hlt⟩
  have b2 := JT_val ⟨t.val - 1, hlt⟩
  dsimp only at b0 b1 b2
  refine ⟨Fin.ext ?_, Fin.ext ?_, ?_⟩
  · omega
  · omega
  · omega

private theorem part_succ (Ψ : Cert.Spec.Psi) (b : Fin 2) (I : Fin 4) (p k : Fin 128) (J : Fin 4) (J' : ℕ) (hJ' : J' < 4)
    (e : J.val = J' + 1) :
    part Ψ b I p k J.val J.isLt = part Ψ b I p k J' hJ' + ∑ q : Fin 128, Ψ b (Cert.Tile.node I p) (Cert.Tile.node J q) k := by
  obtain ⟨j, hj⟩ := J
  dsimp only at e
  subst e
  rfl

private theorem part_last (Ψ : Cert.Spec.Psi) (b : Fin 2) (I : Fin 4) (p k : Fin 128) (J : Fin 4) (e : J.val = 3) :
    part Ψ b I p k J.val J.isLt = Cert.Spec.pooled Ψ b (Cert.Tile.node I p) k := by
  obtain ⟨j, hj⟩ := J
  dsimp only at e
  subst e
  exact (Cert.Tile.pooled_split Ψ b (Cert.Tile.node I p) k).symm

private theorem upd_at (c : Dev nD) (t : Fin cfg0.N) (xs : Vec Ideal S128x128 .f32) (p k : Fin 128) :
    k0_pay17 (F := Ideal) (k0_pay13 (blk3 m c t)) (k0_pay14 (k0_pay6 (ldRows (grid0.coords t) (blk0 m c t)) (ldKx (grid0.coords t) (blk1 m c t)) (ldKy (grid0.coords t) (blk1 m c t)) (ldKz (grid0.coords t) (blk1 m c t))) (blk10 m c t) (blk11 m c t) (blk3 m c t) (blk2 m c t)) xs (ix2 p k)
      = xs (ix2 p k) + ∑ q : Fin 128, PsiA m c (bT t) (Cert.Tile.node (IT t) p) (Cert.Tile.node (JT t) q) k := by
  refine (Cert.Proof.Pay.pay17_at _ _ xs p k).trans ?_
  refine congrArg (fun s => xs (ix2 p k) + s) ?_
  unfold Cert.Tile.rowSum
  exact Finset.sum_congr rfl fun q _ => psi_at m c t p q k

private theorem sum_A (c : Dev nD) (t : Fin cfg0.N) (h0 : t.val % 4 = 0) (h1 : ¬t.val % 4 = 3) (p k : Fin 128) :
    (outsAt0 m c t.val t.isLt).2.2.2.2.2 (ix2 p k)
      = k0_pay17 (F := Ideal) (k0_pay13 (blk3 m c t)) (k0_pay14 (k0_pay6 (ldRows (grid0.coords t) (blk0 m c t)) (ldKx (grid0.coords t) (blk1 m c t)) (ldKy (grid0.coords t) (blk1 m c t)) (ldKz (grid0.coords t) (blk1 m c t))) (blk10 m c t) (blk11 m c t) (blk3 m c t) (blk2 m c t)) (k0_pay16 (F := Ideal)) (ix2 p k) := by
  rw [outsAt0_A m c t h0 h1]
  dsimp only [outsA]
  exact congrFun (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (blk0 m c t) (blk1 m c t) (blk2 m c t) (blk3 m c t) (blk4 m c t) (blk5 m c t) (blk6 m c t) (blk7 m c t) (blk8 m c t) (blk9 m c t) (blk10 m c t) (blk11 m c t)) (ix2 p k)

private theorem sum_B (c : Dev nD) (t : Fin cfg0.N) (h0 : ¬t.val % 4 = 0) (h1 : ¬t.val % 4 = 3) (hlt : t.val - 1 < cfg0.N) (p k : Fin 128) :
    (outsAt0 m c t.val t.isLt).2.2.2.2.2 (ix2 p k)
      = k0_pay17 (F := Ideal) (k0_pay13 (blk3 m c t)) (k0_pay14 (k0_pay6 (ldRows (grid0.coords t) (blk0 m c t)) (ldKx (grid0.coords t) (blk1 m c t)) (ldKy (grid0.coords t) (blk1 m c t)) (ldKz (grid0.coords t) (blk1 m c t))) (blk10 m c t) (blk11 m c t) (blk3 m c t) (blk2 m c t)) (outsAt0 m c (t.val - 1) hlt).2.2.2.2.2 (ix2 p k) := by
  rw [outsAt0_B m c t h0 h1]
  dsimp only [outsB]
  exact congrFun (sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (fun h => h1 ((hcond0_1 t).mp h)) (blk0 m c t) (blk1 m c t) (blk2 m c t) (blk3 m c t) (blk4 m c t) (blk5 m c t) (blk6 m c t) (blk7 m c t) (blk8 m c t) (blk9 m c t) (blk10 m c t) (blk11 m c t) (outsAt0 m c (t.val - 1) hlt).2.2.2.2.2) (ix2 p k)

private theorem sum_C (c : Dev nD) (t : Fin cfg0.N) (h0 : ¬t.val % 4 = 0) (h1 : t.val % 4 = 3) (hlt : t.val - 1 < cfg0.N) (p k : Fin 128) :
    (outsAt0 m c t.val t.isLt).2.2.2.2.2 (ix2 p k)
      = k0_pay17 (F := Ideal) (k0_pay13 (blk3 m c t)) (k0_pay14 (k0_pay6 (ldRows (grid0.coords t) (blk0 m c t)) (ldKx (grid0.coords t) (blk1 m c t)) (ldKy (grid0.coords t) (blk1 m c t)) (ldKz (grid0.coords t) (blk1 m c t))) (blk10 m c t) (blk11 m c t) (blk3 m c t) (blk2 m c t)) (outsAt0 m c (t.val - 1) hlt).2.2.2.2.2 (ix2 p k) := by
  rw [outsAt0_C m c t h0 h1]
  dsimp only [outsC]
  exact congrFun (sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (blk0 m c t) (blk1 m c t) (blk2 m c t) (blk3 m c t) (blk4 m c t) (blk5 m c t) (blk6 m c t) (blk7 m c t) (blk8 m c t) (blk9 m c t) (blk10 m c t) (blk11 m c t) (outsAt0 m c (t.val - 1) hlt).2.2.2.2.2) (ix2 p k)

private theorem acc_first (c : Dev nD) (t : Fin cfg0.N) (h0 : t.val % 4 = 0) (p k : Fin 128) :
    (outsAt0 m c t.val t.isLt).2.2.2.2.2 (ix2 p k)
      = part (PsiA m c) (bT t) (IT t) p k (JT t).val (JT t).isLt := by
  have h1 : ¬t.val % 4 = 3 := by omega
  refine (sum_A m c t h0 h1 p k).trans ?_
  refine (upd_at m c t (k0_pay16 (F := Ideal)) p k).trans ?_
  rw [Cert.Proof.Pay.pay16_at p k, JT_zero t h0]
  rfl

private theorem acc_succ (c : Dev nD) (t : Fin cfg0.N) (h0 : ¬t.val % 4 = 0) (hlt : t.val - 1 < cfg0.N) (p k : Fin 128)
    (ih : (outsAt0 m c (t.val - 1) hlt).2.2.2.2.2 (ix2 p k)
      = part (PsiA m c) (bT ⟨t.val - 1, hlt⟩) (IT ⟨t.val - 1, hlt⟩) p k (JT ⟨t.val - 1, hlt⟩).val (JT ⟨t.val - 1, hlt⟩).isLt) :
    (outsAt0 m c t.val t.isLt).2.2.2.2.2 (ix2 p k)
      = part (PsiA m c) (bT t) (IT t) p k (JT t).val (JT t).isLt := by
  obtain ⟨hb, hI, hJ⟩ := prev_coords t h0 hlt
  have hupd : (outsAt0 m c t.val t.isLt).2.2.2.2.2 (ix2 p k)
      = (outsAt0 m c (t.val - 1) hlt).2.2.2.2.2 (ix2 p k) + ∑ q : Fin 128, PsiA m c (bT t) (Cert.Tile.node (IT t) p) (Cert.Tile.node (JT t) q) k := by
    by_cases h1 : t.val % 4 = 3
    · exact (sum_C m c t h0 h1 hlt p k).trans (upd_at m c t (outsAt0 m c (t.val - 1) hlt).2.2.2.2.2 p k)
    · exact (sum_B m c t h0 h1 hlt p k).trans (upd_at m c t (outsAt0 m c (t.val - 1) hlt).2.2.2.2.2 p k)
  rw [hupd, ih, hb, hI]
  exact (part_succ (PsiA m c) (bT t) (IT t) p k (JT t) (JT ⟨t.val - 1, hlt⟩).val (JT ⟨t.val - 1, hlt⟩).isLt hJ).symm

-- The sum is reset at key tile 0 and every later point of the row adds one tile's row sums.
private theorem acc_fin (c : Dev nD) : ∀ (n : ℕ) (t : Fin cfg0.N), t.val = n → ∀ p k : Fin 128,
    (outsAt0 m c t.val t.isLt).2.2.2.2.2 (ix2 p k)
      = part (PsiA m c) (bT t) (IT t) p k (JT t).val (JT t).isLt := by
  intro n
  induction n with
  | zero =>
    intro t ht p k
    exact acc_first m c t (by omega) p k
  | succ n ih =>
    intro t ht p k
    by_cases h0 : t.val % 4 = 0
    · exact acc_first m c t h0 p k
    · have hlt : t.val - 1 < cfg0.N := Nat.lt_of_le_of_lt (Nat.sub_le _ _) t.isLt
      exact acc_succ m c t h0 hlt p k (ih ⟨t.val - 1, hlt⟩ (by dsimp only; omega) p k)

theorem merged_at (c : Dev nD) (t : Fin cfg0.N) (h3 : t.val % 4 = 3) (p : Fin 128) (e : Fin 768) :
    (outsAt0 m c t.val t.isLt).2.1 (ix3 0 p e)
      = Cert.Spec.merged (PsiA m c) (projWA m c) (projBA m c) (ix3 (bT t) (Cert.Tile.node (IT t) p) e) := by
  have h0 : ¬t.val % 4 = 0 := by omega
  have hlt : t.val - 1 < cfg0.N := Nat.lt_of_le_of_lt (Nat.sub_le _ _) t.isLt
  have hacc : ∀ p k : Fin 128, k0_pay17 (F := Ideal) (k0_pay13 (blk3 m c t)) (k0_pay14 (k0_pay6 (ldRows (grid0.coords t) (blk0 m c t)) (ldKx (grid0.coords t) (blk1 m c t)) (ldKy (grid0.coords t) (blk1 m c t)) (ldKz (grid0.coords t) (blk1 m c t))) (blk10 m c t) (blk11 m c t) (blk3 m c t) (blk2 m c t)) (outsAt0 m c (t.val - 1) hlt).2.2.2.2.2 (ix2 p k)
      = Cert.Spec.pooled (PsiA m c) (bT t) (Cert.Tile.node (IT t) p) k := fun p k =>
    (sum_C m c t h0 h3 hlt p k).symm.trans ((acc_fin m c t.val t rfl p k).trans
      (part_last (PsiA m c) (bT t) (IT t) p k (JT t) ((JT_val t).trans h3)))
  rw [outsAt0_C m c t h0 h3]
  dsimp only [outsC]
  refine (congrFun (out_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h3) (blk0 m c t) (blk1 m c t) (blk2 m c t) (blk3 m c t) (blk4 m c t) (blk5 m c t) (blk6 m c t) (blk7 m c t) (blk8 m c t) (blk9 m c t) (blk10 m c t) (blk11 m c t) (outsAt0 m c (t.val - 1) hlt).2.2.2.2.2) (ix3 0 p e)).trans ?_
  refine (Cert.Proof.Pay.pay1_at _ (blk8 m c t) (blk9 m c t) p e).trans ?_
  rw [blk9_projB m c t]
  exact Cert.Tile.merged_eq hacc (blk8_pwt m c t) (projBA m c) p e

end Cert.KernelIdeal.Val

end
-- ==== Proof.KV.Final13.lean ====
import proofs.«407687_j69655779606854_3_alg».proof.Proof.KV.ValAcc
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

theorem idx13 : ∀ t : Fin cfg0.N, win0_13.index t (0 : Fin 3) = (grid0.coords t 0).val
    ∧ win0_13.index t (1 : Fin 3) = (grid0.coords t 1).val
    ∧ win0_13.index t (2 : Fin 3) = 0 :=
  (by decide +kernel : ∀ t : Fin grid0.N, _)

theorem flushed13_eq (c : Dev nD) (t : Fin cfg0.N) (hf : (cfg0.win 13).flush t = true) :
    (dats m 0 c).flushed 13 t
      = ((cfg0.win 13).blk t).view.read (Elt Ideal) (Cert.Spec.merged (PsiA m c) (projWA m c) (projBA m c)) := by
  have h3 : t.val % 4 = 3 := (flush0_13 t).mp hf
  show (cfg0.win 13).cut (grid0.coords t) ((dats m 0 c).after 13 t) = _
  rw [after0_13]
  obtain ⟨e0, e1, e2⟩ := idx13 t
  funext y
  have hy0 : (y 0).val < 1 := (y 0).isLt
  have hy1 : (y 1).val < 128 := (y 1).isLt
  have hy2 : (y 2).val < 768 := (y 2).isLt
  show (outsAt0 m c t.val t.isLt).2.1 ((cfg0.win 13).xinj (grid0.coords t) y)
    = Cert.Spec.merged (PsiA m c) (projWA m c) (projBA m c) (((cfg0.win 13).blk t).view.emb y)
  have hl : (cfg0.win 13).xinj (grid0.coords t) y = ix3 (0 : Fin 1) (⟨(y 1).val, hy1⟩ : Fin 128) (⟨(y 2).val, hy2⟩ : Fin 768) := by
    funext a; apply Fin.ext
    match a with
    | ⟨0, _⟩ => show (y 0).val = 0; omega
    | ⟨1, _⟩ => rfl
    | ⟨2, _⟩ => rfl
  have hr : ((cfg0.win 13).blk t).view.emb y
      = ix3 (bT t) (Cert.Tile.node (IT t) (⟨(y 1).val, hy1⟩ : Fin 128)) (⟨(y 2).val, hy2⟩ : Fin 768) := by
    funext a; apply Fin.ext
    match a with
    | ⟨0, _⟩ => show win0_13.index t (0 : Fin 3) * 1 + 1 * (y 0).val = (grid0.coords t 0).val; omega
    | ⟨1, _⟩ => show win0_13.index t (1 : Fin 3) * 128 + 1 * (y 1).val = (grid0.coords t 1).val * 128 + (y 1).val; omega
    | ⟨2, _⟩ => show win0_13.index t (2 : Fin 3) * 768 + 1 * (y 2).val = (y 2).val; omega
  rw [hl, hr]
  exact merged_at m c t h3 _ _

theorem mem_blk13 (t : Fin cfg0.N) (i : S2x512x768.Idx) :
    i ∈ ((cfg0.win 13).blk t).view.set ↔ ∀ a : Fin 3, win0_13.index t a * S1x128x768.size a ≤ (i a).val ∧ (i a).val < win0_13.index t a * S1x128x768.size a + S1x128x768.size a := by
  show i ∈ ((View.whole main_v19_1).slice (win0_13.rect t)).set ↔ _
  rw [View.set_slice_whole, Rect.mem_set_unit]
  exact Iff.rfl

theorem idx_onto13 : ∀ (q0 : Fin 2) (q1 : Fin 4), ∃ t : Fin cfg0.N, t.val % 4 = 3
    ∧ win0_13.index t (0 : Fin 3) = q0.val ∧ win0_13.index t (1 : Fin 3) = q1.val ∧ win0_13.index t (2 : Fin 3) = 0 :=
  (by decide +kernel : ∀ (q0 : Fin 2) (q1 : Fin 4), ∃ t : Fin grid0.N, t.val % 4 = 3
    ∧ win0_13.index t (0 : Fin 3) = q0.val ∧ win0_13.index t (1 : Fin 3) = q1.val ∧ win0_13.index t (2 : Fin 3) = 0)

theorem cover13 (i : S2x512x768.Idx) :
    ∃ t : Fin cfg0.N, (cfg0.win 13).flush t = true ∧ i ∈ ((cfg0.win 13).blk t).view.set := by
  have hi0 : (i 0).val < 2 := (i 0).isLt
  have hi1 : (i 1).val < 512 := (i 1).isLt
  have hi2 : (i 2).val < 768 := (i 2).isLt
  obtain ⟨t, h3, q0, q1, q2⟩ := idx_onto13 ⟨(i 0).val, hi0⟩ ⟨(i 1).val / 128, by omega⟩
  have q0' : win0_13.index t (0 : Fin 3) = (i 0).val := q0
  have q1' : win0_13.index t (1 : Fin 3) = (i 1).val / 128 := q1
  refine ⟨t, (flush0_13 t).mpr h3, ?_⟩
  rw [mem_blk13]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 128 ≤ (i 1).val ∧ (i 1).val < win0_13.index t (1 : Fin 3) * 128 + 128; omega
  | ⟨2, _⟩ => show win0_13.index t (2 : Fin 3) * 768 ≤ (i 2).val ∧ (i 2).val < win0_13.index t (2 : Fin 3) * 768 + 768; omega

theorem final13 (c : Dev nD) :
    (dats m 0 c).arrAt 13 cfg0.N = Cert.Spec.merged (PsiA m c) (projWA m c) (projBA m c) := by
  exact (dats m 0 c).arrAt_eq_of_cover 13 (Cert.Spec.merged (PsiA m c) (projWA m c) (projBA m c)) (flushed13_eq m c) cover13

end Cert.KernelIdeal.Val

end
-- ==== Proof.KV.ValNd.lean ====
import proofs.«407687_j69655779606854_3_alg».proof.Proof.KV.Tiles
import proofs.«407687_j69655779606854_3_alg».proof.Proof.KV.PiecesA
import proofs.«407687_j69655779606854_3_alg».proof.Proof.KV.PiecesB
import proofs.«407687_j69655779606854_3_alg».proof.Proof.KV.PiecesC
import proofs.«407687_j69655779606854_3_alg».proof.Proof.PayNd
import proofs.«407687_j69655779606854_3_alg».proof.Proof.TileSpec

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

private theorem nd0_pay (c : Dev nD) (t : Fin cfg0.N) (p q : Fin 128) :
    k0_pay9 (F := Ideal) (k0_pay8 (ldRows (grid0.coords t) (blk0 m c t)) (ldKx (grid0.coords t) (blk1 m c t)) (ldKy (grid0.coords t) (blk1 m c t)) (ldKz (grid0.coords t) (blk1 m c t))) (ix3 0 p q)
      = Cert.Spec.ndRecip (posA m c) (bT t) (Cert.Tile.node (IT t) p) (Cert.Tile.node (JT t) q) 0 :=
  (Cert.Proof.Pay.pay9_at (ldRows (grid0.coords t) (blk0 m c t)) (ldKx (grid0.coords t) (blk1 m c t)) (ldKy (grid0.coords t) (blk1 m c t)) (ldKz (grid0.coords t) (blk1 m c t)) p q).trans (Cert.Tile.nd_x (posTile m c t) p q)

private theorem nd1_pay (c : Dev nD) (t : Fin cfg0.N) (p q : Fin 128) :
    k0_pay10 (F := Ideal) (k0_pay4 (ldRows (grid0.coords t) (blk0 m c t)) (ldKy (grid0.coords t) (blk1 m c t))) (k0_pay7 (ldRows (grid0.coords t) (blk0 m c t)) (ldKx (grid0.coords t) (blk1 m c t)) (ldKy (grid0.coords t) (blk1 m c t)) (ldKz (grid0.coords t) (blk1 m c t))) (ix3 0 p q)
      = Cert.Spec.ndRecip (posA m c) (bT t) (Cert.Tile.node (IT t) p) (Cert.Tile.node (JT t) q) 1 :=
  (Cert.Proof.Pay.pay10_at (ldRows (grid0.coords t) (blk0 m c t)) (ldKx (grid0.coords t) (blk1 m c t)) (ldKy (grid0.coords t) (blk1 m c t)) (ldKz (grid0.coords t) (blk1 m c t)) p q).trans (Cert.Tile.nd_y (posTile m c t) p q)

private theorem nd2_pay (c : Dev nD) (t : Fin cfg0.N) (p q : Fin 128) :
    k0_pay11 (F := Ideal) (k0_pay5 (ldRows (grid0.coords t) (blk0 m c t)) (ldKz (grid0.coords t) (blk1 m c t))) (k0_pay7 (ldRows (grid0.coords t) (blk0 m c t)) (ldKx (grid0.coords t) (blk1 m c t)) (ldKy (grid0.coords t) (blk1 m c t)) (ldKz (grid0.coords t) (blk1 m c t))) (ix3 0 p q)
      = Cert.Spec.ndRecip (posA m c) (bT t) (Cert.Tile.node (IT t) p) (Cert.Tile.node (JT t) q) 2 :=
  (Cert.Proof.Pay.pay11_at (ldRows (grid0.coords t) (blk0 m c t)) (ldKx (grid0.coords t) (blk1 m c t)) (ldKy (grid0.coords t) (blk1 m c t)) (ldKz (grid0.coords t) (blk1 m c t)) p q).trans (Cert.Tile.nd_z (posTile m c t) p q)

theorem nd0_at (c : Dev nD) (t : Fin cfg0.N) (p q : Fin 128) :
    (outsAt0 m c t.val t.isLt).2.2.1 (ix3 0 p q) = Cert.Spec.ndRecip (posA m c) (bT t) (Cert.Tile.node (IT t) p) (Cert.Tile.node (JT t) q) 0 := by
  by_cases h0 : t.val % 4 = 0
  · by_cases h1 : t.val % 4 = 3
    · exfalso; omega
    · rw [outsAt0_A m c t h0 h1]; dsimp only [outsA]
      refine (congrFun (out_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix3 0 p q)).trans ?_
      exact nd0_pay m c t p q
  · by_cases h1 : t.val % 4 = 3
    · rw [outsAt0_C m c t h0 h1]; dsimp only [outsC]
      refine (congrFun (out_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2) (ix3 0 p q)).trans ?_
      exact nd0_pay m c t p q
    · rw [outsAt0_B m c t h0 h1]; dsimp only [outsB]
      refine (congrFun (out_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2) (ix3 0 p q)).trans ?_
      exact nd0_pay m c t p q

theorem nd1_at (c : Dev nD) (t : Fin cfg0.N) (p q : Fin 128) :
    (outsAt0 m c t.val t.isLt).2.2.2.1 (ix3 0 p q) = Cert.Spec.ndRecip (posA m c) (bT t) (Cert.Tile.node (IT t) p) (Cert.Tile.node (JT t) q) 1 := by
  by_cases h0 : t.val % 4 = 0
  · by_cases h1 : t.val % 4 = 3
    · exfalso; omega
    · rw [outsAt0_A m c t h0 h1]; dsimp only [outsA]
      refine (congrFun (out_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix3 0 p q)).trans ?_
      exact nd1_pay m c t p q
  · by_cases h1 : t.val % 4 = 3
    · rw [outsAt0_C m c t h0 h1]; dsimp only [outsC]
      refine (congrFun (out_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2) (ix3 0 p q)).trans ?_
      exact nd1_pay m c t p q
    · rw [outsAt0_B m c t h0 h1]; dsimp only [outsB]
      refine (congrFun (out_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2) (ix3 0 p q)).trans ?_
      exact nd1_pay m c t p q

theorem nd2_at (c : Dev nD) (t : Fin cfg0.N) (p q : Fin 128) :
    (outsAt0 m c t.val t.isLt).2.2.2.2.1 (ix3 0 p q) = Cert.Spec.ndRecip (posA m c) (bT t) (Cert.Tile.node (IT t) p) (Cert.Tile.node (JT t) q) 2 := by
  by_cases h0 : t.val % 4 = 0
  · by_cases h1 : t.val % 4 = 3
    · exfalso; omega
    · rw [outsAt0_A m c t h0 h1]; dsimp only [outsA]
      refine (congrFun (out_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix3 0 p q)).trans ?_
      exact nd2_pay m c t p q
  · by_cases h1 : t.val % 4 = 3
    · rw [outsAt0_C m c t h0 h1]; dsimp only [outsC]
      refine (congrFun (out_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2) (ix3 0 p q)).trans ?_
      exact nd2_pay m c t p q
    · rw [outsAt0_B m c t h0 h1]; dsimp only [outsB]
      refine (congrFun (out_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2) (ix3 0 p q)).trans ?_
      exact nd2_pay m c t p q

end Cert.KernelIdeal.Val

end
-- ==== Proof.KV.FinalNd.lean ====
import proofs.«407687_j69655779606854_3_alg».proof.Proof.KV.ValNd
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

theorem idxNd : ∀ t : Fin cfg0.N,
    (win0_14.index t 0 = (grid0.coords t 0).val ∧ win0_14.index t 1 = (grid0.coords t 1).val ∧ win0_14.index t 2 = (grid0.coords t 2).val)
    ∧ (win0_15.index t 0 = (grid0.coords t 0).val ∧ win0_15.index t 1 = (grid0.coords t 1).val ∧ win0_15.index t 2 = (grid0.coords t 2).val)
    ∧ (win0_16.index t 0 = (grid0.coords t 0).val ∧ win0_16.index t 1 = (grid0.coords t 1).val ∧ win0_16.index t 2 = (grid0.coords t 2).val) :=
  (by decide +kernel : ∀ t : Fin grid0.N, _)

theorem coordsNd : ∀ t : Fin cfg0.N,
    (grid0.coords t 0).val = t.val / 16 ∧ (grid0.coords t 1).val = t.val / 4 % 4 ∧ (grid0.coords t 2).val = t.val % 4 :=
  (by decide +kernel : ∀ t : Fin grid0.N, _)

def ptNd (b : Fin 2) (i j : Fin 512) : Fin cfg0.N := ⟨b.val * 16 + (i.val / 128) * 4 + j.val / 128, by
  have hN : cfg0.N = 32 := N_0
  have hb := b.isLt; have hi := i.isLt; have hj := j.isLt
  rw [hN]; omega⟩

theorem flushed14_eq (c : Dev nD) (t : Fin cfg0.N) :
    (dats m 0 c).flushed 14 t = ((cfg0.win 14).blk t).view.read (Elt Ideal) (fun y => Cert.Spec.ndRecip (posA m c) (y 0) (y 1) (y 2) 0) := by
  show (cfg0.win 14).cut (grid0.coords t) ((dats m 0 c).after 14 t) = _
  rw [after0_14]
  funext y
  have h0 : (y 0).val < 1 := (y 0).isLt
  have h1 : (y 1).val < 128 := (y 1).isLt
  have h2 : (y 2).val < 128 := (y 2).isLt
  obtain ⟨e0, e1, e2⟩ := (idxNd t).1
  show (outsAt0 m c t.val t.isLt).2.2.1 ((cfg0.win 14).xinj (grid0.coords t) y)
    = Cert.Spec.ndRecip (posA m c) (((cfg0.win 14).blk t).view.emb y 0) (((cfg0.win 14).blk t).view.emb y 1) (((cfg0.win 14).blk t).view.emb y 2) 0
  have e : (cfg0.win 14).xinj (grid0.coords t) y = ix3 0 ⟨(y 1).val, h1⟩ ⟨(y 2).val, h2⟩ := by
    funext a; apply Fin.ext
    match a with
    | ⟨0, _⟩ => show (y 0).val = 0; omega
    | ⟨1, _⟩ => rfl
    | ⟨2, _⟩ => rfl
  rw [e, nd0_at]
  have g0 : bT t = ((cfg0.win 14).blk t).view.emb y 0 := by
    apply Fin.ext
    show (grid0.coords t 0).val = win0_14.index t 0 * 1 + 1 * (y 0).val
    omega
  have g1 : Cert.Tile.node (IT t) ⟨(y 1).val, h1⟩ = ((cfg0.win 14).blk t).view.emb y 1 := by
    apply Fin.ext
    show (grid0.coords t 1).val * 128 + (y 1).val = win0_14.index t 1 * 128 + 1 * (y 1).val
    omega
  have g2 : Cert.Tile.node (JT t) ⟨(y 2).val, h2⟩ = ((cfg0.win 14).blk t).view.emb y 2 := by
    apply Fin.ext
    show (grid0.coords t 2).val * 128 + (y 2).val = win0_14.index t 2 * 128 + 1 * (y 2).val
    omega
  rw [g0, g1, g2]

theorem mem_blk14 (t : Fin cfg0.N) (i : S2x512x512.Idx) :
    i ∈ ((cfg0.win 14).blk t).view.set ↔ ∀ a : Fin 3, win0_14.index t a * S1x128x128.size a ≤ (i a).val ∧ (i a).val < win0_14.index t a * S1x128x128.size a + S1x128x128.size a := by
  show i ∈ ((View.whole main_v19_2).slice (win0_14.rect t)).set ↔ _
  rw [View.set_slice_whole, Rect.mem_set_unit]
  exact Iff.rfl

theorem cover14 (i : S2x512x512.Idx) :
    ∃ t : Fin cfg0.N, (cfg0.win 14).flush t = true ∧ i ∈ ((cfg0.win 14).blk t).view.set := by
  refine ⟨ptNd (i 0) (i 1) (i 2), flush0_14 _, ?_⟩
  rw [mem_blk14]
  obtain ⟨e0, e1, e2⟩ := (idxNd (ptNd (i 0) (i 1) (i 2))).1
  obtain ⟨c0, c1, c2⟩ := coordsNd (ptNd (i 0) (i 1) (i 2))
  have hv : (ptNd (i 0) (i 1) (i 2)).val = (i 0).val * 16 + ((i 1).val / 128) * 4 + (i 2).val / 128 := rfl
  have h0 : (i 0).val < 2 := (i 0).isLt
  have h1 : (i 1).val < 512 := (i 1).isLt
  have h2 : (i 2).val < 512 := (i 2).isLt
  intro a
  match a with
  | ⟨0, _⟩ =>
    show win0_14.index (ptNd (i 0) (i 1) (i 2)) 0 * 1 ≤ (i 0).val ∧ (i 0).val < win0_14.index (ptNd (i 0) (i 1) (i 2)) 0 * 1 + 1
    omega
  | ⟨1, _⟩ =>
    show win0_14.index (ptNd (i 0) (i 1) (i 2)) 1 * 128 ≤ (i 1).val ∧ (i 1).val < win0_14.index (ptNd (i 0) (i 1) (i 2)) 1 * 128 + 128
    omega
  | ⟨2, _⟩ =>
    show win0_14.index (ptNd (i 0) (i 1) (i 2)) 2 * 128 ≤ (i 2).val ∧ (i 2).val < win0_14.index (ptNd (i 0) (i 1) (i 2)) 2 * 128 + 128
    omega

theorem final14 (c : Dev nD) :
    (dats m 0 c).arrAt 14 cfg0.N = fun y => Cert.Spec.ndRecip (posA m c) (y 0) (y 1) (y 2) 0 :=
  (dats m 0 c).arrAt_eq_of_cover 14 _ (fun t _ => flushed14_eq m c t) cover14

theorem flushed15_eq (c : Dev nD) (t : Fin cfg0.N) :
    (dats m 0 c).flushed 15 t = ((cfg0.win 15).blk t).view.read (Elt Ideal) (fun y => Cert.Spec.ndRecip (posA m c) (y 0) (y 1) (y 2) 1) := by
  show (cfg0.win 15).cut (grid0.coords t) ((dats m 0 c).after 15 t) = _
  rw [after0_15]
  funext y
  have h0 : (y 0).val < 1 := (y 0).isLt
  have h1 : (y 1).val < 128 := (y 1).isLt
  have h2 : (y 2).val < 128 := (y 2).isLt
  obtain ⟨e0, e1, e2⟩ := (idxNd t).2.1
  show (outsAt0 m c t.val t.isLt).2.2.2.1 ((cfg0.win 15).xinj (grid0.coords t) y)
    = Cert.Spec.ndRecip (posA m c) (((cfg0.win 15).blk t).view.emb y 0) (((cfg0.win 15).blk t).view.emb y 1) (((cfg0.win 15).blk t).view.emb y 2) 1
  have e : (cfg0.win 15).xinj (grid0.coords t) y = ix3 0 ⟨(y 1).val, h1⟩ ⟨(y 2).val, h2⟩ := by
    funext a; apply Fin.ext
    match a with
    | ⟨0, _⟩ => show (y 0).val = 0; omega
    | ⟨1, _⟩ => rfl
    | ⟨2, _⟩ => rfl
  rw [e, nd1_at]
  have g0 : bT t = ((cfg0.win 15).blk t).view.emb y 0 := by
    apply Fin.ext
    show (grid0.coords t 0).val = win0_15.index t 0 * 1 + 1 * (y 0).val
    omega
  have g1 : Cert.Tile.node (IT t) ⟨(y 1).val, h1⟩ = ((cfg0.win 15).blk t).view.emb y 1 := by
    apply Fin.ext
    show (grid0.coords t 1).val * 128 + (y 1).val = win0_15.index t 1 * 128 + 1 * (y 1).val
    omega
  have g2 : Cert.Tile.node (JT t) ⟨(y 2).val, h2⟩ = ((cfg0.win 15).blk t).view.emb y 2 := by
    apply Fin.ext
    show (grid0.coords t 2).val * 128 + (y 2).val = win0_15.index t 2 * 128 + 1 * (y 2).val
    omega
  rw [g0, g1, g2]

theorem mem_blk15 (t : Fin cfg0.N) (i : S2x512x512.Idx) :
    i ∈ ((cfg0.win 15).blk t).view.set ↔ ∀ a : Fin 3, win0_15.index t a * S1x128x128.size a ≤ (i a).val ∧ (i a).val < win0_15.index t a * S1x128x128.size a + S1x128x128.size a := by
  show i ∈ ((View.whole main_v19_3).slice (win0_15.rect t)).set ↔ _
  rw [View.set_slice_whole, Rect.mem_set_unit]
  exact Iff.rfl

theorem cover15 (i : S2x512x512.Idx) :
    ∃ t : Fin cfg0.N, (cfg0.win 15).flush t = true ∧ i ∈ ((cfg0.win 15).blk t).view.set := by
  refine ⟨ptNd (i 0) (i 1) (i 2), flush0_15 _, ?_⟩
  rw [mem_blk15]
  obtain ⟨e0, e1, e2⟩ := (idxNd (ptNd (i 0) (i 1) (i 2))).2.1
  obtain ⟨c0, c1, c2⟩ := coordsNd (ptNd (i 0) (i 1) (i 2))
  have hv : (ptNd (i 0) (i 1) (i 2)).val = (i 0).val * 16 + ((i 1).val / 128) * 4 + (i 2).val / 128 := rfl
  have h0 : (i 0).val < 2 := (i 0).isLt
  have h1 : (i 1).val < 512 := (i 1).isLt
  have h2 : (i 2).val < 512 := (i 2).isLt
  intro a
  match a with
  | ⟨0, _⟩ =>
    show win0_15.index (ptNd (i 0) (i 1) (i 2)) 0 * 1 ≤ (i 0).val ∧ (i 0).val < win0_15.index (ptNd (i 0) (i 1) (i 2)) 0 * 1 + 1
    omega
  | ⟨1, _⟩ =>
    show win0_15.index (ptNd (i 0) (i 1) (i 2)) 1 * 128 ≤ (i 1).val ∧ (i 1).val < win0_15.index (ptNd (i 0) (i 1) (i 2)) 1 * 128 + 128
    omega
  | ⟨2, _⟩ =>
    show win0_15.index (ptNd (i 0) (i 1) (i 2)) 2 * 128 ≤ (i 2).val ∧ (i 2).val < win0_15.index (ptNd (i 0) (i 1) (i 2)) 2 * 128 + 128
    omega

theorem final15 (c : Dev nD) :
    (dats m 0 c).arrAt 15 cfg0.N = fun y => Cert.Spec.ndRecip (posA m c) (y 0) (y 1) (y 2) 1 :=
  (dats m 0 c).arrAt_eq_of_cover 15 _ (fun t _ => flushed15_eq m c t) cover15

theorem flushed16_eq (c : Dev nD) (t : Fin cfg0.N) :
    (dats m 0 c).flushed 16 t = ((cfg0.win 16).blk t).view.read (Elt Ideal) (fun y => Cert.Spec.ndRecip (posA m c) (y 0) (y 1) (y 2) 2) := by
  show (cfg0.win 16).cut (grid0.coords t) ((dats m 0 c).after 16 t) = _
  rw [after0_16]
  funext y
  have h0 : (y 0).val < 1 := (y 0).isLt
  have h1 : (y 1).val < 128 := (y 1).isLt
  have h2 : (y 2).val < 128 := (y 2).isLt
  obtain ⟨e0, e1, e2⟩ := (idxNd t).2.2
  show (outsAt0 m c t.val t.isLt).2.2.2.2.1 ((cfg0.win 16).xinj (grid0.coords t) y)
    = Cert.Spec.ndRecip (posA m c) (((cfg0.win 16).blk t).view.emb y 0) (((cfg0.win 16).blk t).view.emb y 1) (((cfg0.win 16).blk t).view.emb y 2) 2
  have e : (cfg0.win 16).xinj (grid0.coords t) y = ix3 0 ⟨(y 1).val, h1⟩ ⟨(y 2).val, h2⟩ := by
    funext a; apply Fin.ext
    match a with
    | ⟨0, _⟩ => show (y 0).val = 0; omega
    | ⟨1, _⟩ => rfl
    | ⟨2, _⟩ => rfl
  rw [e, nd2_at]
  have g0 : bT t = ((cfg0.win 16).blk t).view.emb y 0 := by
    apply Fin.ext
    show (grid0.coords t 0).val = win0_16.index t 0 * 1 + 1 * (y 0).val
    omega
  have g1 : Cert.Tile.node (IT t) ⟨(y 1).val, h1⟩ = ((cfg0.win 16).blk t).view.emb y 1 := by
    apply Fin.ext
    show (grid0.coords t 1).val * 128 + (y 1).val = win0_16.index t 1 * 128 + 1 * (y 1).val
    omega
  have g2 : Cert.Tile.node (JT t) ⟨(y 2).val, h2⟩ = ((cfg0.win 16).blk t).view.emb y 2 := by
    apply Fin.ext
    show (grid0.coords t 2).val * 128 + (y 2).val = win0_16.index t 2 * 128 + 1 * (y 2).val
    omega
  rw [g0, g1, g2]

theorem mem_blk16 (t : Fin cfg0.N) (i : S2x512x512.Idx) :
    i ∈ ((cfg0.win 16).blk t).view.set ↔ ∀ a : Fin 3, win0_16.index t a * S1x128x128.size a ≤ (i a).val ∧ (i a).val < win0_16.index t a * S1x128x128.size a + S1x128x128.size a := by
  show i ∈ ((View.whole main_v19_4).slice (win0_16.rect t)).set ↔ _
  rw [View.set_slice_whole, Rect.mem_set_unit]
  exact Iff.rfl

theorem cover16 (i : S2x512x512.Idx) :
    ∃ t : Fin cfg0.N, (cfg0.win 16).flush t = true ∧ i ∈ ((cfg0.win 16).blk t).view.set := by
  refine ⟨ptNd (i 0) (i 1) (i 2), flush0_16 _, ?_⟩
  rw [mem_blk16]
  obtain ⟨e0, e1, e2⟩ := (idxNd (ptNd (i 0) (i 1) (i 2))).2.2
  obtain ⟨c0, c1, c2⟩ := coordsNd (ptNd (i 0) (i 1) (i 2))
  have hv : (ptNd (i 0) (i 1) (i 2)).val = (i 0).val * 16 + ((i 1).val / 128) * 4 + (i 2).val / 128 := rfl
  have h0 : (i 0).val < 2 := (i 0).isLt
  have h1 : (i 1).val < 512 := (i 1).isLt
  have h2 : (i 2).val < 512 := (i 2).isLt
  intro a
  match a with
  | ⟨0, _⟩ =>
    show win0_16.index (ptNd (i 0) (i 1) (i 2)) 0 * 1 ≤ (i 0).val ∧ (i 0).val < win0_16.index (ptNd (i 0) (i 1) (i 2)) 0 * 1 + 1
    omega
  | ⟨1, _⟩ =>
    show win0_16.index (ptNd (i 0) (i 1) (i 2)) 1 * 128 ≤ (i 1).val ∧ (i 1).val < win0_16.index (ptNd (i 0) (i 1) (i 2)) 1 * 128 + 128
    omega
  | ⟨2, _⟩ =>
    show win0_16.index (ptNd (i 0) (i 1) (i 2)) 2 * 128 ≤ (i 2).val ∧ (i 2).val < win0_16.index (ptNd (i 0) (i 1) (i 2)) 2 * 128 + 128
    omega

theorem final16 (c : Dev nD) :
    (dats m 0 c).arrAt 16 cfg0.N = fun y => Cert.Spec.ndRecip (posA m c) (y 0) (y 1) (y 2) 2 :=
  (dats m 0 c).arrAt_eq_of_cover 16 _ (fun t _ => flushed16_eq m c t) cover16

end Cert.KernelIdeal.Val

end
-- ==== Proof.TailStack.lean ====
import proofs.«407687_j69655779606854_3_alg».proof.KernelIdeal
import proofs.«407687_j69655779606854_3_alg».proof.Proof.Spec
import Idealize.ShloMosaic.Lib.ValueIdx
import Idealize.ShloMosaic.Lib.Pipeline.Value
import Idealize.ShloMosaic.Lib.ValueLayout

noncomputable section

namespace Cert.Proof.Tail

open Idealize.ShloMosaic Idealize.ShloMosaic.ValueIdx Cert.KernelIdeal

variable [Cert.KernelIdeal.Facts₀]

open Cert.KernelIdeal.Facts₀

def stack3 (a0 a1 a2 : (⟨S2x512x512, .f32⟩ : BufTy).Contents (Elt Ideal)) : (⟨S2x512x512x3, .f32⟩ : BufTy).Contents (Elt Ideal) :=
  concatenate S2x512x512x3 3 [⟨S2x512x512x1, broadcastInDim S2x512x512x1 ![0, 1, 2] bcast_S2x512x512_S2x512x512x1_0_1_2 a0⟩,
    ⟨S2x512x512x1, broadcastInDim S2x512x512x1 ![0, 1, 2] bcast_S2x512x512_S2x512x512x1_0_1_2 a1⟩,
    ⟨S2x512x512x1, broadcastInDim S2x512x512x1 ![0, 1, 2] bcast_S2x512x512_S2x512x512x1_0_1_2 a2⟩] concatenates_S2x512x512x1_S2x512x512x1_S2x512x512x1_S2x512x512x3_d3

theorem bcast1_apply (a : (⟨S2x512x512, .f32⟩ : BufTy).Contents (Elt Ideal)) (b : Fin 2) (i j : Fin 512) (z : Fin 1) :
    broadcastInDim S2x512x512x1 ![0, 1, 2] bcast_S2x512x512_S2x512x512x1_0_1_2 a (ix4 b i j z) = a (ix3 b i j) :=
  broadcastInDim_apply _ bcast_S2x512x512_S2x512x512x1_0_1_2 a (ix4 b i j z) (ix3 b i j) (fun c => match c with
    | ⟨0, _⟩ => by show b.val = if (2 : Nat) = 1 then 0 else b.val; rw [if_neg (by decide)]
    | ⟨1, _⟩ => by show i.val = if (512 : Nat) = 1 then 0 else i.val; rw [if_neg (by decide)]
    | ⟨2, _⟩ => by show j.val = if (512 : Nat) = 1 then 0 else j.val; rw [if_neg (by decide)])

theorem stack3_at (a0 a1 a2 : (⟨S2x512x512, .f32⟩ : BufTy).Contents (Elt Ideal)) (b : Fin 2) (i j : Fin 512) (d : Fin 3) :
    stack3 a0 a1 a2 (ix4 b i j d) = (![a0, a1, a2] d) (ix3 b i j) := by
  have h := concatenate_ofFn_unit_apply (t := S2x512x512x3) (s₁ := S2x512x512x1) 3
    (fun n : Fin 3 => broadcastInDim S2x512x512x1 ![0, 1, 2] bcast_S2x512x512_S2x512x512x1_0_1_2 (![a0, a1, a2] n))
    concatenates_S2x512x512x1_S2x512x512x1_S2x512x512x1_S2x512x512x3_d3 rfl rfl (ix4 b i j d) d rfl (ix4 b i j 0)
    (fun c => match c with
      | ⟨0, _⟩ => fun _ => rfl
      | ⟨1, _⟩ => fun _ => rfl
      | ⟨2, _⟩ => fun _ => rfl
      | ⟨3, _⟩ => fun hc => absurd rfl hc)
  rw [bcast1_apply] at h
  exact h

theorem stack3_0 (a0 a1 a2 : (⟨S2x512x512, .f32⟩ : BufTy).Contents (Elt Ideal)) (b : Fin 2) (i j : Fin 512) :
    stack3 a0 a1 a2 (ix4 b i j 0) = a0 (ix3 b i j) := stack3_at a0 a1 a2 b i j 0

theorem stack3_1 (a0 a1 a2 : (⟨S2x512x512, .f32⟩ : BufTy).Contents (Elt Ideal)) (b : Fin 2) (i j : Fin 512) :
    stack3 a0 a1 a2 (ix4 b i j 1) = a1 (ix3 b i j) := stack3_at a0 a1 a2 b i j 1

theorem stack3_2 (a0 a1 a2 : (⟨S2x512x512, .f32⟩ : BufTy).Contents (Elt Ideal)) (b : Fin 2) (i j : Fin 512) :
    stack3 a0 a1 a2 (ix4 b i j 2) = a2 (ix3 b i j) := stack3_at a0 a1 a2 b i j 2

theorem stack3_nd (pos : Cert.Spec.Arr Cert.Spec.SPos) (a0 a1 a2 : (⟨S2x512x512, .f32⟩ : BufTy).Contents (Elt Ideal))
    (h0 : ∀ (b : Fin 2) (i j : Fin 512), a0 (ix3 b i j) = Cert.Spec.ndRecip pos b i j 0)
    (h1 : ∀ (b : Fin 2) (i j : Fin 512), a1 (ix3 b i j) = Cert.Spec.ndRecip pos b i j 1)
    (h2 : ∀ (b : Fin 2) (i j : Fin 512), a2 (ix3 b i j) = Cert.Spec.ndRecip pos b i j 2) :
    stack3 a0 a1 a2 = Cert.Spec.ndArr (Cert.Spec.ndRecip pos) := by
  funext y
  have hy : y = ix4 (y 0) (y 1) (y 2) (y 3) := eq_ix4 y
  show stack3 a0 a1 a2 y = Cert.Spec.ndRecip pos (y 0) (y 1) (y 2) (y 3)
  generalize y 0 = b, y 1 = i, y 2 = j, y 3 = d at hy ⊢
  subst hy
  match d with
  | ⟨0, _⟩ => exact (stack3_0 a0 a1 a2 b i j).trans (h0 b i j)
  | ⟨1, _⟩ => exact (stack3_1 a0 a1 a2 b i j).trans (h1 b i j)
  | ⟨2, _⟩ => exact (stack3_2 a0 a1 a2 b i j).trans (h2 b i j)

end Cert.Proof.Tail

end
-- ==== Proof.KV.Run.lean ====
import proofs.«407687_j69655779606854_3_alg».proof.Proof.KV.Final12
import proofs.«407687_j69655779606854_3_alg».proof.Proof.KV.Final13
import proofs.«407687_j69655779606854_3_alg».proof.Proof.KV.FinalNd
import proofs.«407687_j69655779606854_3_alg».proof.Proof.TailStack
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

theorem third_ref : Matrix.vecHead (Matrix.vecTail ![main_v21, main_v22]) = main_v22 := rfl

theorem tail_stack (c : Dev nD) :
    Pipeline.afterTail₀ cfgs (dats m) 0 (V0 m) [hostOps1] c main_v23
      = Cert.Proof.Tail.stack3 ((dats m 0 c).arrAt 14 cfg0.N) ((dats m 0 c).arrAt 15 cfg0.N) ((dats m 0 c).arrAt 16 cfg0.N) := by
  unfold Pipeline.afterTail₀
  simp only [List.flatten_cons, List.flatten_nil, List.append_nil]
  after_results
  dsimp only [Matrix.cons_val_zero, Matrix.cons_val_one, Matrix.cons_val_two, Matrix.head_cons, third_ref]
  repeat (first
    | rw [StableHlo.unary_result]
    | (rw [StableHlo.unary_result_ne]; rotate_left; decide))
  rw [show (Pipeline.withArrays (cfgs 0).spec c (V0 m c) (fun w => (dats m 0 c).arrAt w (cfgs 0).N)) (Proc.devRef .tc main_v19_2) = (dats m 0 c).arrAt 14 cfg0.N from
        Pipeline.withArrays_arr spec0 launch0.win.arr_inj c _ _ 14,
      show (Pipeline.withArrays (cfgs 0).spec c (V0 m c) (fun w => (dats m 0 c).arrAt w (cfgs 0).N)) (Proc.devRef .tc main_v19_3) = (dats m 0 c).arrAt 15 cfg0.N from
        Pipeline.withArrays_arr spec0 launch0.win.arr_inj c _ _ 15,
      show (Pipeline.withArrays (cfgs 0).spec c (V0 m c) (fun w => (dats m 0 c).arrAt w (cfgs 0).N)) (Proc.devRef .tc main_v19_4) = (dats m 0 c).arrAt 16 cfg0.N from
        Pipeline.withArrays_arr spec0 launch0.win.arr_inj c _ _ 16]
  rfl

theorem tail_nd (c : Dev nD) :
    Pipeline.afterTail₀ cfgs (dats m) 0 (V0 m) [hostOps1] c main_v23 = Cert.Spec.ndArr (Cert.Spec.ndRecip (posA m c)) := by
  rw [tail_stack, final14, final15, final16]
  exact Cert.Proof.Tail.stack3_nd (posA m c) _ _ _ (fun _ _ _ => rfl) (fun _ _ _ => rfl) (fun _ _ _ => rfl)

theorem run : θ_run defs (onTc (τ := τ) (main (F := Ideal))) ⟨m, fun _ => 0, ρ⟩ (fun r => ∀ c : Dev nD,
      r.2.mem ((c.tc : Thread nD τ).loc main_v19_0) = Cert.Spec.attn (PsiA m c) (w1A m c) (b1A m c) (w2A m c) (b2A m c)
      ∧ r.2.mem ((c.tc : Thread nD τ).loc main_v19_1) = Cert.Spec.merged (PsiA m c) (projWA m c) (projBA m c)
      ∧ r.2.mem ((c.tc : Thread nD τ).loc main_v23) = Cert.Spec.ndArr (Cert.Spec.ndRecip (posA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 12).trans (final12 m c), ((h c).1 13).trans (final13 m c),
    ((h c).2 main_v23 (Pipeline.mem_restRefs_of main_v23 (by decide) (by decide))).trans (tail_nd m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c))),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).1 5).trans (((dats m 0 c).arrAt_in 5 rfl _).trans ((A_eq m c 5).trans (V_main_arg8 m c))),
    ((h c).1 6).trans (((dats m 0 c).arrAt_in 6 rfl _).trans ((A_eq m c 6).trans (V_main_arg9 m c))),
    ((h c).1 7).trans (((dats m 0 c).arrAt_in 7 rfl _).trans ((A_eq m c 7).trans (V_main_arg10 m c))),
    ((h c).2 main_arg11 (Pipeline.mem_restRefs_of main_arg11 (by decide) (by decide))).trans (W_main_arg11 m (dats m) c),
    ((h c).1 9).trans (((dats m 0 c).arrAt_in 9 rfl _).trans ((A_eq m c 9).trans (V_main_arg12 m c)))⟩) (run_main m ρ)

end Cert.KernelIdeal.Val

end
-- ==== Proof.Algebra.Words.lean ====
import proofs.«407687_j69655779606854_3_alg».proof.Proof.Real

noncomputable section

namespace Cert.Spec

open Idealize.ShloMosaic

theorem one_val : one = ((1 : ℝ) : EReal) := by
  simp [one, Ideal.ofBits, Ideal.ieee, -EReal.coe_mul]; norm_num

theorem negHalf_val : negHalf = ((-1 / 2 : ℝ) : EReal) := by
  simp [negHalf, Ideal.ofBits, Ideal.ieee, -EReal.coe_mul]; norm_num

theorem rootTwoPi_val : rootTwoPi = ((10513561 / 4194304 : ℝ) : EReal) := by
  simp [rootTwoPi, Ideal.ofBits, Ideal.ieee, -EReal.coe_mul]; norm_num

theorem hundredth_val : hundredth = ((5368709 / 536870912 : ℝ) : EReal) := by
  simp [hundredth, Ideal.ofBits, Ideal.ieee, -EReal.coe_mul]; norm_num

theorem eps_val : eps = ((10995116 / 1099511627776 : ℝ) : EReal) := by
  simp [eps, Ideal.ofBits, Ideal.ieee, -EReal.coe_mul]; norm_num

end Cert.Spec

end
-- ==== Proof.Algebra.lean ====
import proofs.«407687_j69655779606854_3_alg».proof.Proof.Algebra.Words
import Mathlib.Analysis.SpecialFunctions.Sqrt
import Mathlib.Tactic.FieldSimp
import Mathlib.Tactic.Ring
import Mathlib.Tactic.Positivity

noncomputable section

namespace Cert.Spec

open Idealize.ShloMosaic Idealize.ShloMosaic.ValueIdx

theorem coe_max_coe (a b : ℝ) : max (a : EReal) (b : EReal) = ((max a b : ℝ) : EReal) :=
  (EReal.coe_strictMono.monotone.map_max).symm

theorem div_one_coe {y : ℝ} (h : y ≠ 0) : Ideal.div one (y : EReal) = ((1 / y : ℝ) : EReal) := by
  rw [Ideal.div_coe h, one_val, ← EReal.coe_mul, one_mul]

theorem delta_real (pos : Arr SPos) (hpos : IsReal pos) (b : Fin 2) (i j : Fin 512) (d : Fin 3) :
    ∃ r : ℝ, delta pos b i j d = (r : EReal) := by
  obtain ⟨r1, h1⟩ := hpos (ix3 b j d)
  obtain ⟨r2, h2⟩ := hpos (ix3 b i d)
  exact ⟨r1 - r2, by rw [delta, h1, h2, EReal.coe_sub]⟩

theorem dist_real (pos : Arr SPos) (hpos : IsReal pos) (b : Fin 2) (i j : Fin 512) :
    ∃ r : ℝ, 0 ≤ r ∧ dist pos b i j = (r : EReal) := by
  obtain ⟨d0, h0⟩ := delta_real pos hpos b i j 0
  obtain ⟨d1, h1⟩ := delta_real pos hpos b i j 1
  obtain ⟨d2, h2⟩ := delta_real pos hpos b i j 2
  refine ⟨Real.sqrt (d0 * d0 + d1 * d1 + d2 * d2), Real.sqrt_nonneg _, ?_⟩
  have hnn : ¬ (d0 * d0 + d1 * d1 + d2 * d2 < 0) :=
    not_lt.mpr (add_nonneg (add_nonneg (mul_self_nonneg d0) (mul_self_nonneg d1)) (mul_self_nonneg d2))
  rw [dist, h0, h1, h2, ← EReal.coe_mul, ← EReal.coe_mul, ← EReal.coe_mul, ← EReal.coe_add, ← EReal.coe_add,
    Ideal.sqrt_coe, if_neg hnn]

theorem denom_real (pos : Arr SPos) (hpos : IsReal pos) (b : Fin 2) (i j : Fin 512) :
    ∃ y : ℝ, 0 < y ∧ dist pos b i j + eps = (y : EReal) := by
  obtain ⟨r, hr, h⟩ := dist_real pos hpos b i j
  refine ⟨r + 10995116 / 1099511627776, by positivity, ?_⟩
  rw [h, eps_val, ← EReal.coe_add]

-- The denominator is a positive real, so multiplying by its reciprocal is dividing by it.
theorem ndRecip_eq_ndQuot (pos : Arr SPos) (hpos : IsReal pos) (b : Fin 2) (i j : Fin 512) (d : Fin 3) :
    ndRecip pos b i j d = ndQuot pos b i j d := by
  obtain ⟨y, hy, h⟩ := denom_real pos hpos b i j
  rw [ndRecip, ndQuot, h, div_one_coe hy.ne', Ideal.div_coe hy.ne']

theorem tval_real (pos : Arr SPos) (gamma beta : Arr SEdge) (hpos : IsReal pos) (hgamma : IsReal gamma)
    (hbeta : IsReal beta) (b : Fin 2) (i j : Fin 512) :
    ∃ t : ℝ, tval pos gamma beta b i j = (t : EReal) := by
  obtain ⟨r, _, h⟩ := dist_real pos hpos b i j
  obtain ⟨g, hg⟩ := hgamma (ix3 b i j)
  obtain ⟨c, hc⟩ := hbeta (ix3 b i j)
  exact ⟨g * r + c, by rw [tval, h, hg, hc, ← EReal.coe_mul, ← EReal.coe_add]⟩

theorem sigma_real (stds : Arr SK) (hstds : IsReal stds) (k : Fin 128) :
    ∃ s : ℝ, 0 < s ∧ sigma stds k = (s : EReal) := by
  obtain ⟨a, ha⟩ := hstds (ix1 k)
  refine ⟨max a (-a) + 5368709 / 536870912, ?_, ?_⟩
  · have : 0 ≤ max a (-a) := by
      rcases le_total 0 a with h | h
      · exact le_trans h (le_max_left _ _)
      · exact le_trans (neg_nonneg.mpr h) (le_max_right _ _)
    positivity
  · rw [sigma, ha, hundredth_val, ← EReal.coe_neg, coe_max_coe, ← EReal.coe_add]

theorem psi_core (u s : ℝ) (hs : 0 < s) :
    Ideal.exp ((u : EReal) * (u : EReal) * (negHalf * Ideal.div one (s : EReal) * Ideal.div one (s : EReal)))
        * (Ideal.div one (s : EReal) * invRootTwoPi)
      = Ideal.div (Ideal.exp (negHalf * Ideal.div (u : EReal) (s : EReal) * Ideal.div (u : EReal) (s : EReal)))
          ((s : EReal) * rootTwoPi) := by
  have hs' : s ≠ 0 := hs.ne'
  have hD : (s * (10513561 / 4194304) : ℝ) ≠ 0 := by positivity
  rw [div_one_coe hs', Ideal.div_coe hs', rootTwoPi_val, negHalf_val, invRootTwoPi]
  simp only [← EReal.coe_mul, Ideal.exp_coe]
  rw [Ideal.div_coe hD, ← EReal.coe_mul]
  congr 1
  have e : u * u * (-1 / 2 * (1 / s) * (1 / s)) = -1 / 2 * (u * (1 / s)) * (u * (1 / s)) := by ring
  rw [e]
  congr 1
  field_simp

theorem psiRecip_eq_psiQuot (pos : Arr SPos) (gamma beta : Arr SEdge) (means stds : Arr SK)
    (hpos : IsReal pos) (hgamma : IsReal gamma) (hbeta : IsReal beta) (hmeans : IsReal means) (hstds : IsReal stds)
    (b : Fin 2) (i j : Fin 512) (k : Fin 128) :
    psiRecip pos gamma beta means stds b i j k = psiQuot pos gamma beta means stds b i j k := by
  obtain ⟨t, ht⟩ := tval_real pos gamma beta hpos hgamma hbeta b i j
  obtain ⟨m, hm⟩ := hmeans (ix1 k)
  obtain ⟨s, hs, hsig⟩ := sigma_real stds hstds k
  rw [psiRecip, psiQuot, ht, hm, hsig, ← EReal.coe_sub]
  exact psi_core (t - m) s hs

end Cert.Spec

end
-- ==== Proof.Finite.lean ====
import proofs.«407687_j69655779606854_3_alg».proof.Defs
import proofs.«407687_j69655779606854_3_alg».proof.Proof.Gen.Pre_finite_inputs
import proofs.«407687_j69655779606854_3_alg».proof.Proof.Real
import Idealize.ShloMosaic.Lib.ReduceAll
import Idealize.ShloMosaic.Lib.ValueIdx

namespace Cert.Proof.Fin

open Idealize.ShloMosaic Idealize.ShloMosaic.ValueIdx

instance subsingleton_scalar : Subsingleton Cert.Pre_finite_inputs.S_.Idx := ⟨fun a b => funext fun d => d.elim0⟩

theorem inf_word : Ideal.ofBits .f32 0x7F800000#32 = (⊤ : EReal) := by
  simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) :
    ∀ y : s.Idx, ∃ r : ℝ, x y = (r : EReal) := fun y =>
  real_of_abs_lt (x y) (Host.reduce_andi_all _ _ hr hu ix0 e y)

open Idealize.ShloMosaic.TcCoe in
theorem args_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    Cert.Spec.IsReal (s := Cert.Spec.SPos) (m ((c.tc : Thread Cert.KernelIdeal.nD Cert.KernelIdeal.τ).loc Cert.KernelIdeal.main_arg0))
    ∧ Cert.Spec.IsReal (s := Cert.Spec.SK) (m ((c.tc : Thread _ Cert.KernelIdeal.τ).loc Cert.KernelIdeal.main_arg3))
    ∧ Cert.Spec.IsReal (s := Cert.Spec.SK) (m ((c.tc : Thread _ Cert.KernelIdeal.τ).loc Cert.KernelIdeal.main_arg4))
    ∧ Cert.Spec.IsReal (s := (⟨2, ![1024, 1]⟩ : Shape)) (m ((c.tc : Thread _ Cert.KernelIdeal.τ).loc Cert.KernelIdeal.main_arg5))
    ∧ Cert.Spec.IsReal (s := (⟨2, ![1024, 1]⟩ : Shape)) (m ((c.tc : Thread _ Cert.KernelIdeal.τ).loc Cert.KernelIdeal.main_arg6)) := by
  have e := congrFun (h c) ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h3⟩, h4⟩, h5⟩, h6⟩, -⟩, -⟩, -⟩, -⟩, -⟩, -⟩ := e
  exact ⟨all_real _ _ _ _ h0, all_real _ _ _ _ h3, all_real _ _ _ _ h4, all_real _ _ _ _ h5, all_real _ _ _ _ h6⟩

end Cert.Proof.Fin
-- ==== Proof.RefPsi.lean ====
import proofs.«407687_j69655779606854_3_alg».proof.Proof.RefRun
import proofs.«407687_j69655779606854_3_alg».proof.Proof.Spec

noncomputable section

namespace Cert.Proof.Ref

open Idealize.ShloMosaic Idealize.ShloMosaic.ValueIdx Cert.ReferenceIdeal Cert.ReferenceIdeal.Read

abbrev gammaR (x2 : (⟨S2x512x512, .i32⟩ : BufTy).Contents (Elt Ideal)) (x5 : (⟨S1024x1, .f32⟩ : BufTy).Contents (Elt Ideal)) : Cert.Spec.Arr Cert.Spec.SEdge :=
  val_main_v18 (F := Ideal) x2 x5

abbrev betaR (x2 : (⟨S2x512x512, .i32⟩ : BufTy).Contents (Elt Ideal)) (x6 : (⟨S1024x1, .f32⟩ : BufTy).Contents (Elt Ideal)) : Cert.Spec.Arr Cert.Spec.SEdge :=
  val_main_v26 (F := Ideal) x2 x6

abbrev psiR (x0 : (⟨S2x512x3, .f32⟩ : BufTy).Contents (Elt Ideal)) (x2 : (⟨S2x512x512, .i32⟩ : BufTy).Contents (Elt Ideal))
    (x3 x4 : (⟨S128, .f32⟩ : BufTy).Contents (Elt Ideal)) (x5 x6 : (⟨S1024x1, .f32⟩ : BufTy).Contents (Elt Ideal)) : Cert.Spec.Psi :=
  fun b i j k => Cert.Spec.psiQuot x0 (gammaR x2 x5) (betaR x2 x6) x3 x4 b i j k

theorem delta_at (x0 : (⟨S2x512x3, .f32⟩ : BufTy).Contents (Elt Ideal)) (b : Fin 2) (i j : Fin 512) (d : Fin 3) :
    val_main_v4 (F := Ideal) x0 (ix4 b i j d) = Cert.Spec.delta x0 b i j d := by
  rw [val_main_v4_apply, val_main_v2_apply, val_main_v0_apply, val_main_v3_apply, val_main_v1_apply, Ideal.subf_def]
  have hj : idx_main_v0 (idx_main_v2 (ix4 b i j d)) = ix3 b j d := by
    funext a; match a with | ⟨0, _⟩ => rfl | ⟨1, _⟩ => rfl | ⟨2, _⟩ => rfl
  have hi : idx_main_v1 (idx_main_v3 (ix4 b i j d)) = ix3 b i d := by
    funext a; match a with | ⟨0, _⟩ => rfl | ⟨1, _⟩ => rfl | ⟨2, _⟩ => rfl
  rw [hj, hi]
  rfl

theorem dist_at (x0 : (⟨S2x512x3, .f32⟩ : BufTy).Contents (Elt Ideal)) (b : Fin 2) (i j : Fin 512) :
    val_main_v5 (F := Ideal) x0 (ix3 b i j) = Cert.Spec.dist x0 b i j := by
  rw [val_main_v5_apply, val_main_call0_v1_apply, val_main_call0_cst_apply, Ideal.hostUnary_sqrt_def, Ideal.ofBits_def,
    Ideal.ofBits_zero_f32, zero_add, Fin.sum_univ_three]
  have hk : ∀ k : Fin 3, idx_main_call0_v1 (ix3 b i j) k = ix4 b i j k := fun k => by
    funext a; match a with | ⟨0, _⟩ => rfl | ⟨1, _⟩ => rfl | ⟨2, _⟩ => rfl | ⟨3, _⟩ => rfl
  simp only [hk, val_main_call0_v0_apply, delta_at, Ideal.mulf_def]
  rfl

theorem sigma_at (x4 : (⟨S128, .f32⟩ : BufTy).Contents (Elt Ideal)) (k : Fin 128) :
    val_main_v31 (F := Ideal) x4 (ix1 k) = Cert.Spec.sigma x4 k := by
  rw [val_main_v31_apply, val_main_v29_apply, val_main_v30_apply, val_main_cst_3_apply, Ideal.addf_def, Ideal.hostAbsf_def,
    Ideal.absf_def, Ideal.ofBits_def]
  rfl

theorem tval_at (x0 : (⟨S2x512x3, .f32⟩ : BufTy).Contents (Elt Ideal)) (x2 : (⟨S2x512x512, .i32⟩ : BufTy).Contents (Elt Ideal))
    (x5 x6 : (⟨S1024x1, .f32⟩ : BufTy).Contents (Elt Ideal)) (b : Fin 2) (i j : Fin 512) :
    val_main_v28 (F := Ideal) x0 x2 x5 x6 (ix3 b i j) = Cert.Spec.tval x0 (gammaR x2 x5) (betaR x2 x6) b i j := by
  rw [val_main_v28_apply, val_main_v27_apply, Ideal.addf_def, Ideal.mulf_def, dist_at]
  rfl

theorem z_at (x0 : (⟨S2x512x3, .f32⟩ : BufTy).Contents (Elt Ideal)) (x2 : (⟨S2x512x512, .i32⟩ : BufTy).Contents (Elt Ideal))
    (x3 x4 : (⟨S128, .f32⟩ : BufTy).Contents (Elt Ideal)) (x5 x6 : (⟨S1024x1, .f32⟩ : BufTy).Contents (Elt Ideal))
    (b : Fin 2) (i j : Fin 512) (k : Fin 128) :
    val_main_v39 (F := Ideal) x0 x2 x3 x4 x5 x6 (ix4 b i j k)
      = Ideal.div (Cert.Spec.tval x0 (gammaR x2 x5) (betaR x2 x6) b i j - x3 (ix1 k)) (Cert.Spec.sigma x4 k) := by
  rw [val_main_v39_apply, val_main_v36_apply, val_main_v34_apply, val_main_v32_apply, val_main_v35_apply, val_main_v33_apply,
    val_main_v38_apply, val_main_v37_apply, Ideal.hostDivf_def, Ideal.subf_def]
  have ht : idx_main_v32 (idx_main_v34 (ix4 b i j k)) = ix3 b i j := by
    funext a; match a with | ⟨0, _⟩ => rfl | ⟨1, _⟩ => rfl | ⟨2, _⟩ => rfl
  have hm : idx_main_v33 (idx_main_v35 (ix4 b i j k)) = ix1 k := by
    funext a; match a with | ⟨0, _⟩ => rfl
  have hs : idx_main_v37 (idx_main_v38 (ix4 b i j k)) = ix1 k := by
    funext a; match a with | ⟨0, _⟩ => rfl
  rw [ht, hm, hs, tval_at, sigma_at]

theorem denom_at (x4 : (⟨S128, .f32⟩ : BufTy).Contents (Elt Ideal)) (b : Fin 2) (i j : Fin 512) (k : Fin 128) :
    val_main_v47 (F := Ideal) x4 (ix4 b i j k) = Cert.Spec.sigma x4 k * Cert.Spec.rootTwoPi := by
  rw [val_main_v47_apply, val_main_v46_apply, val_main_v45_apply, val_main_v44_apply, val_main_cst_5_apply, Ideal.mulf_def,
    Ideal.ofBits_def]
  have hs : idx_main_v46 (idx_main_v47 (ix4 b i j k)) = ix1 k := by
    funext a; match a with | ⟨0, _⟩ => rfl
  rw [hs, sigma_at]
  rfl

theorem ref_nd (x0 : (⟨S2x512x3, .f32⟩ : BufTy).Contents (Elt Ideal)) :
    val_main_v10 (F := Ideal) x0 = Cert.Spec.ndArr (Cert.Spec.ndQuot x0) := by
  funext y
  obtain ⟨b, i, j, d, rfl⟩ : ∃ (b : Fin 2) (i j : Fin 512) (d : Fin 3), y = ix4 b i j d := ⟨y 0, y 1, y 2, y 3, eq_ix4 y⟩
  rw [val_main_v10_apply, val_main_v9_apply, val_main_v8_apply, val_main_v6_apply, val_main_v7_apply, val_main_cst_apply,
    Ideal.hostDivf_def, Ideal.addf_def, Ideal.ofBits_def, delta_at]
  have hd : idx_main_v6 (idx_main_v9 (ix4 b i j d)) = ix3 b i j := by
    funext a; match a with | ⟨0, _⟩ => rfl | ⟨1, _⟩ => rfl | ⟨2, _⟩ => rfl
  rw [hd, dist_at]
  rfl

theorem ref_psi (x0 : (⟨S2x512x3, .f32⟩ : BufTy).Contents (Elt Ideal)) (x2 : (⟨S2x512x512, .i32⟩ : BufTy).Contents (Elt Ideal))
    (x3 x4 : (⟨S128, .f32⟩ : BufTy).Contents (Elt Ideal)) (x5 x6 : (⟨S1024x1, .f32⟩ : BufTy).Contents (Elt Ideal)) (y : S2x512x512x128.Idx) :
    val_main_v48 (F := Ideal) x0 x2 x3 x4 x5 x6 y = psiR x0 x2 x3 x4 x5 x6 (y 0) (y 1) (y 2) (y 3) := by
  obtain ⟨b, i, j, k, rfl⟩ : ∃ (b : Fin 2) (i j : Fin 512) (k : Fin 128), y = ix4 b i j k := ⟨y 0, y 1, y 2, y 3, eq_ix4 y⟩
  rw [val_main_v48_apply, val_main_v43_apply, val_main_v42_apply, val_main_v41_apply, val_main_v40_apply, val_main_cst_4_apply,
    Ideal.hostDivf_def, Ideal.hostUnary_exp_def, Ideal.mulf_def, Ideal.mulf_def, Ideal.ofBits_def, z_at, denom_at]
  rfl

end Cert.Proof.Ref

end
-- ==== Proof.Bridge.lean ====
import proofs.«407687_j69655779606854_3_alg».proof.Proof.KV.Args
import proofs.«407687_j69655779606854_3_alg».proof.Proof.Algebra
import proofs.«407687_j69655779606854_3_alg».proof.Proof.Finite
import proofs.«407687_j69655779606854_3_alg».proof.Proof.RefPsi

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frame
open Idealize.ShloMosaic.Pipeline (Dat)

variable (m : (ℓ : Loc nD τ sig) → Buf (Elt Ideal) ℓ) (ρ : Dev nD → PrngReg)

theorem psi_bridge (hpre : @Cert.Pre_KernelIdeal Cert.Pre_finite_inputs.Gen.facts m) (c : Dev nD) :
    Cert.Proof.Ref.psiR (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))
      = PsiA m c := by

  obtain ⟨hpos, hmeans, hstds, htab5, htab6⟩ := Cert.Proof.Fin.args_real m hpre c
  have hgamma : Cert.Spec.IsReal (gammaA m c) := Cert.Proof.Edge.edgeParam_real _ _ htab5
  have hbeta : Cert.Spec.IsReal (betaA m c) := Cert.Proof.Edge.edgeParam_real _ _ htab6
  funext b i j k

  exact (Cert.Spec.psiRecip_eq_psiQuot (posA m c) (gammaA m c) (betaA m c) (meansA m c) (stdsA m c)
    hpos hgamma hbeta hmeans hstds b i j k).symm

theorem nd_bridge (hpre : @Cert.Pre_KernelIdeal Cert.Pre_finite_inputs.Gen.facts m) (c : Dev nD) :
    Cert.Spec.ndArr (Cert.Spec.ndQuot (posA m c)) = Cert.Spec.ndArr (Cert.Spec.ndRecip (posA m c)) := by
  have hpos := (Cert.Proof.Fin.args_real m hpre c).1
  funext y
  exact (Cert.Spec.ndRecip_eq_ndQuot (posA m c) hpos (y 0) (y 1) (y 2) (y 3)).symm

end Cert.KernelIdeal.Val

end
-- ==== Proof.RefOut.lean ====
import proofs.«407687_j69655779606854_3_alg».proof.Proof.RefPsi

noncomputable section

namespace Cert.Proof.Ref

open Idealize.ShloMosaic Idealize.ShloMosaic.ValueIdx Cert.ReferenceIdeal Cert.ReferenceIdeal.Read

theorem ref_hidden (x0 : (⟨S2x512x3, .f32⟩ : BufTy).Contents (Elt Ideal)) (x2 : (⟨S2x512x512, .i32⟩ : BufTy).Contents (Elt Ideal))
    (x3 x4 : (⟨S128, .f32⟩ : BufTy).Contents (Elt Ideal)) (x5 x6 : (⟨S1024x1, .f32⟩ : BufTy).Contents (Elt Ideal))
    (x7 : (⟨S128x128, .f32⟩ : BufTy).Contents (Elt Ideal)) (x8 : (⟨S128, .f32⟩ : BufTy).Contents (Elt Ideal))
    (b : Fin 2) (i j : Fin 512) (h : Fin 128) :
    val_main_v53 (F := Ideal) x0 x2 x3 x4 x5 x6 x7 x8 (ix4 b i j h)
      = Cert.Spec.hidden (psiR x0 x2 x3 x4 x5 x6) x7 x8 b i j h := by
  rw [val_main_v53_apply, val_main_v52_apply, val_main_v49_apply, val_main_v51_apply, val_main_v50_apply,
    val_main_call1_v0_apply, val_main_call1_cst_apply, Ideal.maximumf_def, Ideal.addf_def, Ideal.ofBits_def,
    Ideal.ofBits_zero_f32]
  have eb : idx_main_v50 (idx_main_v51 (ix4 b i j h)) = ix1 h :=
    funext fun a => Fin.ext (by match a with | ⟨0, _⟩ => rfl)
  have es : ∀ k : Fin 128,
      val_main_v48 (F := Ideal) x0 x2 x3 x4 x5 x6 (lidx_main_v49 (ix4 b i j h) k) * x7 (ridx_main_v49 (ix4 b i j h) k)
        = psiR x0 x2 x3 x4 x5 x6 b i j k * x7 (ix2 h k) := fun k => by
    have el : lidx_main_v49 (ix4 b i j h) k = ix4 b i j k :=
      funext fun a => Fin.ext (by match a with | ⟨0, _⟩ => rfl | ⟨1, _⟩ => rfl | ⟨2, _⟩ => rfl | ⟨3, _⟩ => rfl)
    have er : ridx_main_v49 (ix4 b i j h) k = ix2 h k :=
      funext fun a => Fin.ext (by match a with | ⟨0, _⟩ => rfl | ⟨1, _⟩ => rfl)
    rw [el, er, ref_psi]
  rw [eb, Finset.sum_congr rfl fun k _ => es k]
  rfl

theorem ref_attn (x0 : (⟨S2x512x3, .f32⟩ : BufTy).Contents (Elt Ideal)) (x2 : (⟨S2x512x512, .i32⟩ : BufTy).Contents (Elt Ideal))
    (x3 x4 : (⟨S128, .f32⟩ : BufTy).Contents (Elt Ideal)) (x5 x6 : (⟨S1024x1, .f32⟩ : BufTy).Contents (Elt Ideal))
    (x7 : (⟨S128x128, .f32⟩ : BufTy).Contents (Elt Ideal)) (x8 : (⟨S128, .f32⟩ : BufTy).Contents (Elt Ideal))
    (x9 : (⟨S32x128, .f32⟩ : BufTy).Contents (Elt Ideal)) (x10 : (⟨S32, .f32⟩ : BufTy).Contents (Elt Ideal)) :
    val_main_v58 (F := Ideal) x0 x2 x3 x4 x5 x6 x7 x8 x9 x10 = Cert.Spec.attn (psiR x0 x2 x3 x4 x5 x6) x7 x8 x9 x10 := by
  funext y
  obtain ⟨b, h, i, j, rfl⟩ : ∃ (b : Fin 2) (h : Fin 32) (i j : Fin 512), y = ix4 b h i j :=
    ⟨y 0, y 1, y 2, y 3, eq_ix4 y⟩
  rw [val_main_v58_apply, val_main_v57_apply, val_main_v54_apply, val_main_v56_apply, val_main_v55_apply,
    Ideal.addf_def]
  have eb : idx_main_v55 (idx_main_v56 (idx_main_v58 (ix4 b h i j))) = ix1 h :=
    funext fun a => Fin.ext (by match a with | ⟨0, _⟩ => rfl)
  have es : ∀ k : Fin 128,
      val_main_v53 (F := Ideal) x0 x2 x3 x4 x5 x6 x7 x8 (lidx_main_v54 (idx_main_v58 (ix4 b h i j)) k)
          * x9 (ridx_main_v54 (idx_main_v58 (ix4 b h i j)) k)
        = Cert.Spec.hidden (psiR x0 x2 x3 x4 x5 x6) x7 x8 b i j k * x9 (ix2 h k) := fun k => by
    have el : lidx_main_v54 (idx_main_v58 (ix4 b h i j)) k = ix4 b i j k :=
      funext fun a => Fin.ext (by match a with | ⟨0, _⟩ => rfl | ⟨1, _⟩ => rfl | ⟨2, _⟩ => rfl | ⟨3, _⟩ => rfl)
    have er : ridx_main_v54 (idx_main_v58 (ix4 b h i j)) k = ix2 h k :=
      funext fun a => Fin.ext (by match a with | ⟨0, _⟩ => rfl | ⟨1, _⟩ => rfl)
    rw [el, er, ref_hidden]
  rw [eb, Finset.sum_congr rfl fun k _ => es k]
  rfl

theorem ref_pooled (x0 : (⟨S2x512x3, .f32⟩ : BufTy).Contents (Elt Ideal)) (x2 : (⟨S2x512x512, .i32⟩ : BufTy).Contents (Elt Ideal))
    (x3 x4 : (⟨S128, .f32⟩ : BufTy).Contents (Elt Ideal)) (x5 x6 : (⟨S1024x1, .f32⟩ : BufTy).Contents (Elt Ideal))
    (b : Fin 2) (i : Fin 512) (k : Fin 128) :
    val_main_v59 (F := Ideal) x0 x2 x3 x4 x5 x6 (ix3 b i k) = Cert.Spec.pooled (psiR x0 x2 x3 x4 x5 x6) b i k := by
  rw [val_main_v59_apply, val_main_cst_6_apply, Ideal.ofBits_def, Ideal.ofBits_zero_f32, zero_add]
  refine Finset.sum_congr rfl fun j _ => ?_
  have e : idx_main_v59 (ix3 b i k) j = ix4 b i j k :=
    funext fun a => Fin.ext (by match a with | ⟨0, _⟩ => rfl | ⟨1, _⟩ => rfl | ⟨2, _⟩ => rfl | ⟨3, _⟩ => rfl)
  rw [e, ref_psi]

theorem ref_merged (x0 : (⟨S2x512x3, .f32⟩ : BufTy).Contents (Elt Ideal)) (x2 : (⟨S2x512x512, .i32⟩ : BufTy).Contents (Elt Ideal))
    (x3 x4 : (⟨S128, .f32⟩ : BufTy).Contents (Elt Ideal)) (x5 x6 : (⟨S1024x1, .f32⟩ : BufTy).Contents (Elt Ideal))
    (x11 : (⟨S768x128, .f32⟩ : BufTy).Contents (Elt Ideal)) (x12 : (⟨S768, .f32⟩ : BufTy).Contents (Elt Ideal)) :
    val_main_v63 (F := Ideal) x0 x2 x3 x4 x5 x6 x11 x12 = Cert.Spec.merged (psiR x0 x2 x3 x4 x5 x6) x11 x12 := by
  funext y
  obtain ⟨b, n, e, rfl⟩ : ∃ (b : Fin 2) (n : Fin 512) (e : Fin 768), y = ix3 b n e := ⟨y 0, y 1, y 2, eq_ix3 y⟩
  rw [val_main_v63_apply, val_main_v60_apply, val_main_v62_apply, val_main_v61_apply, Ideal.addf_def]
  have eb : idx_main_v61 (idx_main_v62 (ix3 b n e)) = ix1 e :=
    funext fun a => Fin.ext (by match a with | ⟨0, _⟩ => rfl)
  have es : ∀ k : Fin 128,
      val_main_v59 (F := Ideal) x0 x2 x3 x4 x5 x6 (lidx_main_v60 (ix3 b n e) k) * x11 (ridx_main_v60 (ix3 b n e) k)
        = Cert.Spec.pooled (psiR x0 x2 x3 x4 x5 x6) b n k * x11 (ix2 e k) := fun k => by
    have el : lidx_main_v60 (ix3 b n e) k = ix3 b n k :=
      funext fun a => Fin.ext (by match a with | ⟨0, _⟩ => rfl | ⟨1, _⟩ => rfl | ⟨2, _⟩ => rfl)
    have er : ridx_main_v60 (ix3 b n e) k = ix2 e k :=
      funext fun a => Fin.ext (by match a with | ⟨0, _⟩ => rfl | ⟨1, _⟩ => rfl)
    rw [el, er, ref_pooled]
  rw [eb, Finset.sum_congr rfl fun k _ => es k]
  rfl

end Cert.Proof.Ref

end
-- ==== Proof.lean ====
import proofs.«407687_j69655779606854_3_alg».proof.Proof.KV.Run
import proofs.«407687_j69655779606854_3_alg».proof.Proof.Bridge
import proofs.«407687_j69655779606854_3_alg».proof.Proof.RefOut
import proofs.«407687_j69655779606854_3_alg».proof.Defs
import proofs.«407687_j69655779606854_3_alg».proof.Proof.Gen.Kernel
import proofs.«407687_j69655779606854_3_alg».proof.Proof.Gen.Pre_finite_inputs
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem

-- Where floats are their bit patterns, a named constant is the float its literal word denotes.

instance : Named Bits := ⟨fun _ _ {φ} bits => Scalar.ofBits φ bits⟩

-- Read there, the idealized program is the word-level program: the two texts differ only in that constant.

set_option maxHeartbeats 4000000 in
theorem defs₀_eq : (Cert.Kernel.defs₀ (F := Bits)) = (Cert.KernelIdeal.defs₀ (F := Bits)) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

set_option maxHeartbeats 4000000 in
theorem main_eq : (Cert.Kernel.main (F := Bits)) = (Cert.KernelIdeal.main (F := Bits)) := rfl

-- So the word-level program's frame is the idealized program's, whose proof holds at every instance.

set_option maxHeartbeats 4000000 in
theorem frame_k : @Cert.frame_Kernel Cert.Kernel.Gen.facts Cert.Pre_finite_inputs.Gen.facts := fun m ρ _ => by
  have h := Cert.KernelIdeal.Frame.frame (F := Bits) m ρ
  rw [← show Cert.Kernel.defs (F := Bits) = Cert.KernelIdeal.defs (F := Bits) from congrArg (Pipeline.defs Cert.KernelIdeal.pcfgs) defs₀_eq, ← main_eq] at h
  exact h

theorem frame_ki : @Cert.frame_KernelIdeal Cert.KernelIdeal.Gen.facts Cert.Pre_finite_inputs.Gen.facts :=
  fun m ρ _ => Cert.KernelIdeal.Frame.frame m ρ

theorem frame_ri : @Cert.frame_ReferenceIdeal Cert.ReferenceIdeal.Gen.facts Cert.Pre_finite_inputs.Gen.facts := fun m ρ _ =>
  (θ_run Cert.ReferenceIdeal.defs _ _).mono (fun _ h c => (h c).2.2.2) (Cert.ReferenceIdeal.Value.run (F := Ideal) m ρ)

theorem preserves : Cert.preserves_Kernel_KernelIdeal :=
  IdealRules.named_const.statement Cert.KernelIdeal.κ "inv_sqrt_2pi_word" .f32 0x3ECC422A#32 ((4194304 / 10513561 : ℝ) : EReal) rfl

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, _, _, Cert.KernelIdeal.Val.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v58_eq, Cert.Proof.Ref.ref_attn]
    obtain ⟨h0, h1, h2, h3, h4, h5, h6, h7, h8, h9, h10, h11, h12⟩ := hagree c
    rw [h0, h2, h3, h4, h5, h6, h7, h8, h9, h10, Cert.KernelIdeal.Val.psi_bridge m hpre c]
  · rw [Cert.ReferenceIdeal.Read.val_main_v63_eq, Cert.Proof.Ref.ref_merged]
    obtain ⟨h0, h1, h2, h3, h4, h5, h6, h7, h8, h9, h10, h11, h12⟩ := hagree c
    rw [h0, h2, h3, h4, h5, h6, h11, h12, Cert.KernelIdeal.Val.psi_bridge m hpre c]
  · rw [Cert.ReferenceIdeal.Read.val_main_v10_eq, Cert.Proof.Ref.ref_nd]
    obtain ⟨h0, -⟩ := hagree c
    rw [h0]
    exact Cert.KernelIdeal.Val.nd_bridge m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
